-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20000 : Shape := ⟨2, ![256, 20000]⟩
abbrev S256000 : Shape := ⟨1, ![256000]⟩
abbrev S8000 : Shape := ⟨1, ![8000]⟩
abbrev S64000 : Shape := ⟨1, ![64000]⟩
abbrev S2000 : Shape := ⟨1, ![2000]⟩
abbrev S16000 : Shape := ⟨1, ![16000]⟩
abbrev S500 : Shape := ⟨1, ![500]⟩
abbrev S_ : Shape := ⟨0, ![]⟩

class Facts : Prop where
  bcast_S_S256x20000 : S_.BroadcastsInDim S256x20000 (![] : Fin 0 → Fin S256x20000.rank)
  reducesTo_S256x20000_S_d0_1 : S256x20000.ReducesTo [0, 1] S_
  h_S_ : 0 < S_.numel
  bcast_S_S256000 : S_.BroadcastsInDim S256000 (![] : Fin 0 → Fin S256000.rank)
  reducesTo_S256000_S_d0 : S256000.ReducesTo [0] S_
  bcast_S_S8000 : S_.BroadcastsInDim S8000 (![] : Fin 0 → Fin S8000.rank)
  reducesTo_S8000_S_d0 : S8000.ReducesTo [0] S_
  bcast_S_S64000 : S_.BroadcastsInDim S64000 (![] : Fin 0 → Fin S64000.rank)
  reducesTo_S64000_S_d0 : S64000.ReducesTo [0] S_
  bcast_S_S2000 : S_.BroadcastsInDim S2000 (![] : Fin 0 → Fin S2000.rank)
  reducesTo_S2000_S_d0 : S2000.ReducesTo [0] S_
  bcast_S_S16000 : S_.BroadcastsInDim S16000 (![] : Fin 0 → Fin S16000.rank)
  reducesTo_S16000_S_d0 : S16000.ReducesTo [0] S_
  bcast_S_S500 : S_.BroadcastsInDim S500 (![] : Fin 0 → Fin S500.rank)
  reducesTo_S500_S_d0 : S500.ReducesTo [0] S_

variable [Facts]

def fn_part4 {F : FTy → Type} [FloatOps F] (main_arg9 : IVec S16000 32) (main_arg10 : IVec S16000 32) (main_v65 : IVec S_ 1) : IVec S_ 1 :=
  let main_c_28 : IVec S_ 32 := constantI S_ 32 0#32
  let main_v66 : IVec S16000 32 := broadcastInDim S16000 ![] bcast_S_S16000 main_c_28
  let main_v67 : IVec S16000 1 := cmpi .sge main_arg9 main_v66
  let main_c_29 : IVec S_ 1 := constantI S_ 1 1#1
  let main_v68 : IVec S_ 1 := (fun x v => Host.reduce IntOp.andi x v reducesTo_S16000_S_d0 h_S_) main_v67 main_c_29
  let main_v69 : IVec S_ 1 := andi main_v65 main_v68
  let main_c_30 : IVec S_ 32 := constantI S_ 32 500#32
  let main_v70 : IVec S16000 32 := broadcastInDim S16000 ![] bcast_S_S16000 main_c_30
  let main_v71 : IVec S16000 1 := cmpi .slt main_arg9 main_v70
  let main_c_31 : IVec S_ 1 := constantI S_ 1 1#1
  let main_v72 : IVec S_ 1 := (fun x v => Host.reduce IntOp.andi x v reducesTo_S16000_S_d0 h_S_) main_v71 main_c_31
  let main_v73 : IVec S_ 1 := andi main_v69 main_v72
  let main_c_32 : IVec S_ 32 := constantI S_ 32 0#32
  let main_v74 : IVec S16000 32 := broadcastInDim S16000 ![] bcast_S_S16000 main_c_32
  let main_v75 : IVec S16000 1 := cmpi .sge main_arg10 main_v74
  let main_c_33 : IVec S_ 1 := constantI S_ 1 1#1
  let main_v76 : IVec S_ 1 := (fun x v => Host.reduce IntOp.andi x v reducesTo_S16000_S_d0 h_S_) main_v75 main_c_33
  let main_v77 : IVec S_ 1 := andi main_v73 main_v76
  let main_c_34 : IVec S_ 32 := constantI S_ 32 2000#32
  let main_v78 : IVec S16000 32 := broadcastInDim S16000 ![] bcast_S_S16000 main_c_34
  let main_v79 : IVec S16000 1 := cmpi .slt main_arg10 main_v78
  let main_c_35 : IVec S_ 1 := constantI S_ 1 1#1
  let main_v80 : IVec S_ 1 := (fun x v => Host.reduce IntOp.andi x v reducesTo_S16000_S_d0 h_S_) main_v79 main_c_35
  let main_v81 : IVec S_ 1 := andi main_v77 main_v80
  main_v81

def fn_part3 {F : FTy → Type} [FloatOps F] (main_arg5 : IVec S64000 32) (main_arg6 : IVec S64000 32) (main_arg9 : IVec S16000 32) (main_arg10 : IVec S16000 32) (main_v49 : IVec S_ 1) : IVec S_ 1 :=
  let main_c_20 : IVec S_ 32 := constantI S_ 32 0#32
  let main_v50 : IVec S64000 32 := broadcastInDim S64000 ![] bcast_S_S64000 main_c_20
  let main_v51 : IVec S64000 1 := cmpi .sge main_arg5 main_v50
  let main_c_21 : IVec S_ 1 := constantI S_ 1 1#1
  let main_v52 : IVec S_ 1 := (fun x v => Host.reduce IntOp.andi x v reducesTo_S64000_S_d0 h_S_) main_v51 main_c_21
  let main_v53 : IVec S_ 1 := andi main_v49 main_v52
  let main_c_22 : IVec S_ 32 := constantI S_ 32 2000#32
  let main_v54 : IVec S64000 32 := broadcastInDim S64000 ![] bcast_S_S64000 main_c_22
  let main_v55 : IVec S64000 1 := cmpi .slt main_arg5 main_v54
  let main_c_23 : IVec S_ 1 := constantI S_ 1 1#1
  let main_v56 : IVec S_ 1 := (fun x v => Host.reduce IntOp.andi x v reducesTo_S64000_S_d0 h_S_) main_v55 main_c_23
  let main_v57 : IVec S_ 1 := andi main_v53 main_v56
  let main_c_24 : IVec S_ 32 := constantI S_ 32 0#32
  let main_v58 : IVec S64000 32 := broadcastInDim S64000 ![] bcast_S_S64000 main_c_24
  let main_v59 : IVec S64000 1 := cmpi .sge main_arg6 main_v58
  let main_c_25 : IVec S_ 1 := constantI S_ 1 1#1
  let main_v60 : IVec S_ 1 := (fun x v => Host.reduce IntOp.andi x v reducesTo_S64000_S_d0 h_S_) main_v59 main_c_25
  let main_v61 : IVec S_ 1 := andi main_v57 main_v60
  let main_c_26 : IVec S_ 32 := constantI S_ 32 8000#32
  let main_v62 : IVec S64000 32 := broadcastInDim S64000 ![] bcast_S_S64000 main_c_26
  let main_v63 : IVec S64000 1 := cmpi .slt main_arg6 main_v62
  let main_c_27 : IVec S_ 1 := constantI S_ 1 1#1
  let main_v64 : IVec S_ 1 := (fun x v => Host.reduce IntOp.andi x v reducesTo_S64000_S_d0 h_S_) main_v63 main_c_27
  let main_v65 : IVec S_ 1 := andi main_v61 main_v64
  fn_part4 (F := F) main_arg9 main_arg10 main_v65

def fn_part2 {F : FTy → Type} [FloatOps F] (main_arg1 : IVec S256000 32) (main_arg2 : IVec S256000 32) (main_arg5 : IVec S64000 32) (main_arg6 : IVec S64000 32) (main_arg9 : IVec S16000 32) (main_arg10 : IVec S16000 32) (main_v33 : IVec S_ 1) : IVec S_ 1 :=
  let main_c_12 : IVec S_ 32 := constantI S_ 32 0#32
  let main_v34 : IVec S256000 32 := broadcastInDim S256000 ![] bcast_S_S256000 main_c_12
  let main_v35 : IVec S256000 1 := cmpi .sge main_arg1 main_v34
  let main_c_13 : IVec S_ 1 := constantI S_ 1 1#1
  let main_v36 : IVec S_ 1 := (fun x v => Host.reduce IntOp.andi x v reducesTo_S256000_S_d0 h_S_) main_v35 main_c_13
  let main_v37 : IVec S_ 1 := andi main_v33 main_v36
  let main_c_14 : IVec S_ 32 := constantI S_ 32 8000#32
  let main_v38 : IVec S256000 32 := broadcastInDim S256000 ![] bcast_S_S256000 main_c_14
  let main_v39 : IVec S256000 1 := cmpi .slt main_arg1 main_v38
  let main_c_15 : IVec S_ 1 := constantI S_ 1 1#1
  let main_v40 : IVec S_ 1 := (fun x v => Host.reduce IntOp.andi x v reducesTo_S256000_S_d0 h_S_) main_v39 main_c_15
  let main_v41 : IVec S_ 1 := andi main_v37 main_v40
  let main_c_16 : IVec S_ 32 := constantI S_ 32 0#32
  let main_v42 : IVec S256000 32 := broadcastInDim S256000 ![] bcast_S_S256000 main_c_16
  let main_v43 : IVec S256000 1 := cmpi .sge main_arg2 main_v42
  let main_c_17 : IVec S_ 1 := constantI S_ 1 1#1
  let main_v44 : IVec S_ 1 := (fun x v => Host.reduce IntOp.andi x v reducesTo_S256000_S_d0 h_S_) main_v43 main_c_17
  let main_v45 : IVec S_ 1 := andi main_v41 main_v44
  let main_c_18 : IVec S_ 32 := constantI S_ 32 20000#32
  let main_v46 : IVec S256000 32 := broadcastInDim S256000 ![] bcast_S_S256000 main_c_18
  let main_v47 : IVec S256000 1 := cmpi .slt main_arg2 main_v46
  let main_c_19 : IVec S_ 1 := constantI S_ 1 1#1
  let main_v48 : IVec S_ 1 := (fun x v => Host.reduce IntOp.andi x v reducesTo_S256000_S_d0 h_S_) main_v47 main_c_19
  let main_v49 : IVec S_ 1 := andi main_v45 main_v48
  fn_part3 (F := F) main_arg5 main_arg6 main_arg9 main_arg10 main_v49

def fn_part1 {F : FTy → Type} [FloatOps F] (main_arg1 : IVec S256000 32) (main_arg2 : IVec S256000 32) (main_arg5 : IVec S64000 32) (main_arg6 : IVec S64000 32) (main_arg8 : FVec F S2000 .f32) (main_arg9 : IVec S16000 32) (main_arg10 : IVec S16000 32) (main_arg11 : FVec F S16000 .f32) (main_arg12 : FVec F S500 .f32) (main_v13 : IVec S_ 1) (main_v16 : IVec S64000 1) : IVec S_ 1 :=
  let main_c_5 : IVec S_ 1 := constantI S_ 1 1#1
  let main_v17 : IVec S_ 1 := (fun x v => Host.reduce IntOp.andi x v reducesTo_S64000_S_d0 h_S_) main_v16 main_c_5
  let main_v18 : IVec S_ 1 := andi main_v13 main_v17
  let main_v19 : FVec F S2000 .f32 := Host.absf main_arg8
  let main_cst_6 : FVec F S_ .f32 := constant S_ .f32 0x7F800000#32
  let main_v20 : FVec F S2000 .f32 := broadcastInDim S2000 ![] bcast_S_S2000 main_cst_6
  let main_v21 : IVec S2000 1 := cmpf .olt main_v19 main_v20
  let main_c_7 : IVec S_ 1 := constantI S_ 1 1#1
  let main_v22 : IVec S_ 1 := (fun x v => Host.reduce IntOp.andi x v reducesTo_S2000_S_d0 h_S_) main_v21 main_c_7
  let main_v23 : IVec S_ 1 := andi main_v18 main_v22
  let main_v24 : FVec F S16000 .f32 := Host.absf main_arg11
  let main_cst_8 : FVec F S_ .f32 := constant S_ .f32 0x7F800000#32
  let main_v25 : FVec F S16000 .f32 := broadcastInDim S16000 ![] bcast_S_S16000 main_cst_8
  let main_v26 : IVec S16000 1 := cmpf .olt main_v24 main_v25
  let main_c_9 : IVec S_ 1 := constantI S_ 1 1#1
  let main_v27 : IVec S_ 1 := (fun x v => Host.reduce IntOp.andi x v reducesTo_S16000_S_d0 h_S_) main_v26 main_c_9
  let main_v28 : IVec S_ 1 := andi main_v23 main_v27
  let main_v29 : FVec F S500 .f32 := Host.absf main_arg12
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  fn_part2 (F := F) main_arg1 main_arg2 main_arg5 main_arg6 main_arg9 main_arg10 main_v33

def fn {F : FTy → Type} [FloatOps F] (main_arg0 : FVec F S256x20000 .f32) (main_arg1 : IVec S256000 32) (main_arg2 : IVec S256000 32) (main_arg3 : FVec F S256000 .f32) (main_arg4 : FVec F S8000 .f32) (main_arg5 : IVec S64000 32) (main_arg6 : IVec S64000 32) (main_arg7 : FVec F S64000 .f32) (main_arg8 : FVec F S2000 .f32) (main_arg9 : IVec S16000 32) (main_arg10 : IVec S16000 32) (main_arg11 : FVec F S16000 .f32) (main_arg12 : FVec F S500 .f32) : IVec S_ 1 :=
  let main_v0 : FVec F S256x20000 .f32 := Host.absf main_arg0
  let main_cst : FVec F S_ .f32 := constant S_ .f32 0x7F800000#32
  let main_v1 : FVec F S256x20000 .f32 := broadcastInDim S256x20000 ![] bcast_S_S256x20000 main_cst
  let main_v2 : IVec S256x20000 1 := cmpf .olt main_v0 main_v1
  let main_c : IVec S_ 1 := constantI S_ 1 1#1
  let main_v3 : IVec S_ 1 := (fun x v => Host.reduce IntOp.andi x v reducesTo_S256x20000_S_d0_1 h_S_) main_v2 main_c
  let main_v4 : FVec F S256000 .f32 := Host.absf main_arg3
  let main_cst_0 : FVec F S_ .f32 := constant S_ .f32 0x7F800000#32
  let main_v5 : FVec F S256000 .f32 := broadcastInDim S256000 ![] bcast_S_S256000 main_cst_0
  let main_v6 : IVec S256000 1 := cmpf .olt main_v4 main_v5
  let main_c_1 : IVec S_ 1 := constantI S_ 1 1#1
  let main_v7 : IVec S_ 1 := (fun x v => Host.reduce IntOp.andi x v reducesTo_S256000_S_d0 h_S_) main_v6 main_c_1
  let main_v8 : IVec S_ 1 := andi main_v3 main_v7
  let main_v9 : FVec F S8000 .f32 := Host.absf main_arg4
  let main_cst_2 : FVec F S_ .f32 := constant S_ .f32 0x7F800000#32
  let main_v10 : FVec F S8000 .f32 := broadcastInDim S8000 ![] bcast_S_S8000 main_cst_2
  let main_v11 : IVec S8000 1 := cmpf .olt main_v9 main_v10
  let main_c_3 : IVec S_ 1 := constantI S_ 1 1#1
  let main_v12 : IVec S_ 1 := (fun x v => Host.reduce IntOp.andi x v reducesTo_S8000_S_d0 h_S_) main_v11 main_c_3
  let main_v13 : IVec S_ 1 := andi main_v8 main_v12
  let main_v14 : FVec F S64000 .f32 := Host.absf main_arg7
  let main_cst_4 : FVec F S_ .f32 := constant S_ .f32 0x7F800000#32
  let main_v15 : FVec F S64000 .f32 := broadcastInDim S64000 ![] bcast_S_S64000 main_cst_4
  let main_v16 : IVec S64000 1 := cmpf .olt main_v14 main_v15
  fn_part1 (F := F) main_arg1 main_arg2 main_arg5 main_arg6 main_arg8 main_arg9 main_arg10 main_arg11 main_arg12 main_v13 main_v16
-- ==== Kernel.lean ====
abbrev S256x20000 : Shape := ⟨2, ![256, 20000]⟩
abbrev S256000 : Shape := ⟨1, ![256000]⟩
abbrev S8000 : Shape := ⟨1, ![8000]⟩
abbrev S64000 : Shape := ⟨1, ![64000]⟩
abbrev S2000 : Shape := ⟨1, ![2000]⟩
abbrev S16000 : Shape := ⟨1, ![16000]⟩
abbrev S500 : Shape := ⟨1, ![500]⟩
abbrev S_ : Shape := ⟨0, ![]⟩
abbrev S256x20480 : Shape := ⟨2, ![256, 20480]⟩
abbrev S20480x8192 : Shape := ⟨2, ![20480, 8192]⟩
abbrev S256000x1 : Shape := ⟨2, ![256000, 1]⟩
abbrev S256000x2 : Shape := ⟨2, ![256000, 2]⟩
abbrev S8192 : Shape := ⟨1, ![8192]⟩
abbrev S1x8192 : Shape := ⟨2, ![1, 8192]⟩
abbrev S256x8192 : Shape := ⟨2, ![256, 8192]⟩
abbrev S256x1024 : Shape := ⟨2, ![256, 1024]⟩
abbrev S1024x4096 : Shape := ⟨2, ![1024, 4096]⟩
abbrev S1x4096 : Shape := ⟨2, ![1, 4096]⟩
abbrev S256x4096 : Shape := ⟨2, ![256, 4096]⟩
abbrev S8192x2048 : Shape := ⟨2, ![8192, 2048]⟩
abbrev S64000x1 : Shape := ⟨2, ![64000, 1]⟩
abbrev S64000x2 : Shape := ⟨2, ![64000, 2]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S512x1024 : Shape := ⟨2, ![512, 1024]⟩
abbrev S1x1024 : Shape := ⟨2, ![1, 1024]⟩
abbrev S2048x512 : Shape := ⟨2, ![2048, 512]⟩
abbrev S16000x1 : Shape := ⟨2, ![16000, 1]⟩
abbrev S16000x2 : Shape := ⟨2, ![16000, 2]⟩
abbrev S512 : Shape := ⟨1, ![512]⟩
abbrev S1x512 : Shape := ⟨2, ![1, 512]⟩
abbrev S512x256 : Shape := ⟨2, ![512, 256]⟩
abbrev S1x256 : Shape := ⟨2, ![1, 256]⟩
abbrev S256x256 : Shape := ⟨2, ![256, 256]⟩
abbrev S256x500 : Shape := ⟨2, ![256, 500]⟩

abbrev nBuf : Space → Nat
  | .hbm => 144
  | .vmem => 27
  | .smem => 0
  | _ => 0

abbrev hbmTy0_0 (i : Nat) : BufTy := match i % 128 with
  | 0 => ⟨S256x20000, .f32⟩
  | 1 => ⟨S256000, .i32⟩
  | 2 => ⟨S256000, .i32⟩
  | 3 => ⟨S256000, .f32⟩
  | 4 => ⟨S8000, .f32⟩
  | 5 => ⟨S64000, .i32⟩
  | 6 => ⟨S64000, .i32⟩
  | 7 => ⟨S64000, .f32⟩
  | 8 => ⟨S2000, .f32⟩
  | 9 => ⟨S16000, .i32⟩
  | 10 => ⟨S16000, .i32⟩
  | 11 => ⟨S16000, .f32⟩
  | 12 => ⟨S500, .f32⟩
  | 13 => ⟨S256x20000, .bf16⟩
  | 14 => ⟨S_, .i32⟩
  | 15 => ⟨S_, .bf16⟩
  | 16 => ⟨S256x20480, .bf16⟩
  | 17 => ⟨S_, .i32⟩
  | 18 => ⟨S_, .i32⟩
  | 19 => ⟨S_, .i32⟩
  | 20 => ⟨S256000, .i32⟩
  | 21 => ⟨S256000, .i32⟩
  | 22 => ⟨S_, .i32⟩
  | 23 => ⟨S256000, .i32⟩
  | 24 => ⟨S256000, .i32⟩
  | 25 => ⟨S_, .i32⟩
  | 26 => ⟨S_, .i32⟩
  | 27 => ⟨S_, .i32⟩
  | 28 => ⟨S256000, .i32⟩
  | 29 => ⟨S256000, .i32⟩
  | 30 => ⟨S_, .i32⟩
  | 31 => ⟨S256000, .i32⟩
  | 32 => ⟨S256000, .i32⟩
  | 33 => ⟨S_, .f32⟩
  | 34 => ⟨S20480x8192, .f32⟩
  | 35 => ⟨S_, .i32⟩
  | 36 => ⟨S256000, .i32⟩
  | 37 => ⟨S256000, .i1⟩
  | 38 => ⟨S_, .i32⟩
  | 39 => ⟨S256000, .i32⟩
  | 40 => ⟨S256000, .i32⟩
  | 41 => ⟨S256000, .i32⟩
  | 42 => ⟨S_, .i32⟩
  | 43 => ⟨S256000, .i32⟩
  | 44 => ⟨S256000, .i1⟩
  | 45 => ⟨S_, .i32⟩
  | 46 => ⟨S256000, .i32⟩
  | 47 => ⟨S256000, .i32⟩
  | 48 => ⟨S256000, .i32⟩
  | 49 => ⟨S256000x1, .i32⟩
  | 50 => ⟨S256000x1, .i32⟩
  | 51 => ⟨S256000x2, .i32⟩
  | 52 => ⟨S20480x8192, .f32⟩
  | 53 => ⟨S20480x8192, .bf16⟩
  | 54 => ⟨S_, .i32⟩
  | 55 => ⟨S_, .f32⟩
  | 56 => ⟨S8192, .f32⟩
  | 57 => ⟨S1x8192, .f32⟩
  | 58 => ⟨S256x8192, .bf16⟩
  | 59 => ⟨S_, .i32⟩
  | 60 => ⟨S_, .i32⟩
  | 61 => ⟨S_, .i32⟩
  | 62 => ⟨S64000, .i32⟩
  | 63 => ⟨S64000, .i32⟩
  | 64 => ⟨S_, .i32⟩
  | 65 => ⟨S64000, .i32⟩
  | 66 => ⟨S64000, .i32⟩
  | 67 => ⟨S_, .i32⟩
  | 68 => ⟨S_, .i32⟩
  | 69 => ⟨S_, .i32⟩
  | 70 => ⟨S64000, .i32⟩
  | 71 => ⟨S64000, .i32⟩
  | 72 => ⟨S_, .i32⟩
  | 73 => ⟨S64000, .i32⟩
  | 74 => ⟨S64000, .i32⟩
  | 75 => ⟨S_, .f32⟩
  | 76 => ⟨S8192x2048, .f32⟩
  | 77 => ⟨S_, .i32⟩
  | 78 => ⟨S64000, .i32⟩
  | 79 => ⟨S64000, .i1⟩
  | 80 => ⟨S_, .i32⟩
  | 81 => ⟨S64000, .i32⟩
  | 82 => ⟨S64000, .i32⟩
  | 83 => ⟨S64000, .i32⟩
  | 84 => ⟨S_, .i32⟩
  | 85 => ⟨S64000, .i32⟩
  | 86 => ⟨S64000, .i1⟩
  | 87 => ⟨S_, .i32⟩
  | 88 => ⟨S64000, .i32⟩
  | 89 => ⟨S64000, .i32⟩
  | 90 => ⟨S64000, .i32⟩
  | 91 => ⟨S64000x1, .i32⟩
  | 92 => ⟨S64000x1, .i32⟩
  | 93 => ⟨S64000x2, .i32⟩
  | 94 => ⟨S8192x2048, .f32⟩
  | 95 => ⟨S8192x2048, .bf16⟩
  | 96 => ⟨S_, .i32⟩
  | 97 => ⟨S_, .f32⟩
  | 98 => ⟨S2048, .f32⟩
  | 99 => ⟨S1x2048, .f32⟩
  | 100 => ⟨S256x2048, .bf16⟩
  | 101 => ⟨S_, .i32⟩
  | 102 => ⟨S_, .i32⟩
  | 103 => ⟨S_, .i32⟩
  | 104 => ⟨S16000, .i32⟩
  | 105 => ⟨S16000, .i32⟩
  | 106 => ⟨S_, .i32⟩
  | 107 => ⟨S16000, .i32⟩
  | 108 => ⟨S16000, .i32⟩
  | 109 => ⟨S_, .i32⟩
  | 110 => ⟨S_, .i32⟩
  | 111 => ⟨S_, .i32⟩
  | 112 => ⟨S16000, .i32⟩
  | 113 => ⟨S16000, .i32⟩
  | 114 => ⟨S_, .i32⟩
  | 115 => ⟨S16000, .i32⟩
  | 116 => ⟨S16000, .i32⟩
  | 117 => ⟨S_, .f32⟩
  | 118 => ⟨S2048x512, .f32⟩
  | 119 => ⟨S_, .i32⟩
  | 120 => ⟨S16000, .i32⟩
  | 121 => ⟨S16000, .i1⟩
  | 122 => ⟨S_, .i32⟩
  | 123 => ⟨S16000, .i32⟩
  | 124 => ⟨S16000, .i32⟩
  | 125 => ⟨S16000, .i32⟩
  | 126 => ⟨S_, .i32⟩
  | 127 => ⟨S16000, .i32⟩
  | _ => ⟨S256x20000, .f32⟩

abbrev hbmTy0_1 (i : Nat) : BufTy := match i % 128 with
  | 0 => ⟨S16000, .i1⟩
  | 1 => ⟨S_, .i32⟩
  | 2 => ⟨S16000, .i32⟩
  | 3 => ⟨S16000, .i32⟩
  | 4 => ⟨S16000, .i32⟩
  | 5 => ⟨S16000x1, .i32⟩
  | 6 => ⟨S16000x1, .i32⟩
  | 7 => ⟨S16000x2, .i32⟩
  | 8 => ⟨S2048x512, .f32⟩
  | 9 => ⟨S2048x512, .bf16⟩
  | 10 => ⟨S_, .i32⟩
  | 11 => ⟨S_, .f32⟩
  | 12 => ⟨S512, .f32⟩
  | 13 => ⟨S1x512, .f32⟩
  | 14 => ⟨S256x512, .f32⟩
  | 15 => ⟨S256x500, .f32⟩
  | _ => ⟨S256x20000, .f32⟩

abbrev hbmTy (i : Nat) : BufTy := match i / 128 with
  | 0 => hbmTy0_0 i
  | 1 => hbmTy0_1 i
  | _ => ⟨S256x20000, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x512, .bf16⟩
  | .local _ .vmem, ⟨10, _⟩ => ⟨S256x512, .bf16⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x512, .bf16⟩
  | .local _ .vmem, ⟨19, _⟩ => ⟨S256x512, .bf16⟩
  | .local _ .vmem, ⟨20, _⟩ => ⟨S512x256, .bf16⟩
  | .local _ .vmem, ⟨21, _⟩ => ⟨S512x256, .bf16⟩
  | .local _ .vmem, ⟨22, _⟩ => ⟨S1x256, .f32⟩
  | .local _ .vmem, ⟨23, _⟩ => ⟨S1x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | _, _ => ⟨S256x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v2 : Ref sig .tc := ⟨.hbm, 24, rfl⟩
abbrev main_c_2 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_c_4 : Ref sig .tc := ⟨.hbm, 35, rfl⟩
abbrev main_v5 : Ref sig .tc := ⟨.hbm, 36, rfl⟩
abbrev main_v6 : Ref sig .tc := ⟨.hbm, 37, rfl⟩
abbrev main_c_5 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_c_6 : Ref sig .tc := ⟨.hbm, 42, rfl⟩
abbrev main_v10 : Ref sig .tc := ⟨.hbm, 43, rfl⟩
abbrev main_v11 : Ref sig .tc := ⟨.hbm, 44, rfl⟩
abbrev main_c_7 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_8 : Ref sig .tc := ⟨.hbm, 54, rfl⟩
abbrev main_call3_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_9 : Ref sig .tc := ⟨.hbm, 59, rfl⟩
abbrev main_c_10 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v23 : Ref sig .tc := ⟨.hbm, 66, rfl⟩
abbrev main_c_11 : Ref sig .tc := ⟨.hbm, 67, rfl⟩
abbrev main_c_12 : Ref sig .tc := ⟨.hbm, 68, rfl⟩
abbrev main_call5_v0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_v24 : Ref sig .tc := ⟨.hbm, 74, rfl⟩
abbrev main_cst_13 : Ref sig .tc := ⟨.hbm, 75, rfl⟩
abbrev main_v25 : Ref sig .tc := ⟨.hbm, 76, rfl⟩
abbrev main_c_14 : Ref sig .tc := ⟨.hbm, 77, rfl⟩
abbrev main_v26 : Ref sig .tc := ⟨.hbm, 78, rfl⟩
abbrev main_v27 : Ref sig .tc := ⟨.hbm, 79, rfl⟩
abbrev main_c_15 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_c_16 : Ref sig .tc := ⟨.hbm, 84, rfl⟩
abbrev main_v31 : Ref sig .tc := ⟨.hbm, 85, rfl⟩
abbrev main_v32 : Ref sig .tc := ⟨.hbm, 86, rfl⟩
abbrev main_c_17 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_18 : Ref sig .tc := ⟨.hbm, 96, rfl⟩
abbrev main_call6_v0 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_c_19 : Ref sig .tc := ⟨.hbm, 101, rfl⟩
abbrev main_c_20 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_v44 : Ref sig .tc := ⟨.hbm, 108, rfl⟩
abbrev main_c_21 : Ref sig .tc := ⟨.hbm, 109, rfl⟩
abbrev main_c_22 : Ref sig .tc := ⟨.hbm, 110, rfl⟩
abbrev main_call8_v0 : Ref sig .tc := ⟨.hbm, 111, rfl⟩
abbrev main_call8_v1 : Ref sig .tc := ⟨.hbm, 112, rfl⟩
abbrev main_call8_v2 : Ref sig .tc := ⟨.hbm, 113, rfl⟩
abbrev main_call8_v3 : Ref sig .tc := ⟨.hbm, 114, rfl⟩
abbrev main_call8_v4 : Ref sig .tc := ⟨.hbm, 115, rfl⟩
abbrev main_v45 : Ref sig .tc := ⟨.hbm, 116, rfl⟩
abbrev main_cst_23 : Ref sig .tc := ⟨.hbm, 117, rfl⟩
abbrev main_v46 : Ref sig .tc := ⟨.hbm, 118, rfl⟩
abbrev main_c_24 : Ref sig .tc := ⟨.hbm, 119, rfl⟩
abbrev main_v47 : Ref sig .tc := ⟨.hbm, 120, rfl⟩
abbrev main_v48 : Ref sig .tc := ⟨.hbm, 121, rfl⟩
abbrev main_c_25 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_c_26 : Ref sig .tc := ⟨.hbm, 126, rfl⟩
abbrev main_v52 : Ref sig .tc := ⟨.hbm, 127, rfl⟩
abbrev main_v53 : Ref sig .tc := ⟨.hbm, 128, rfl⟩
abbrev main_c_27 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_c_28 : Ref sig .tc := ⟨.hbm, 138, rfl⟩
abbrev main_call9_v0 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v13 : BitVec 1 := Scalar.cmpi .eq arg1 c19_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bitsLt_bf16_f32 : FTy.bits .bf16 < FTy.bits .f32
  pads_S256x20000_S256x20480_000_04800 : S256x20000.Pads (![0, 0] : Fin 2 → Nat) ![0, 480] ![0, 0] S256x20480
  h_S_ : 0 < S_.numel
  bcast_S_S256000 : S_.BroadcastsInDim S256000 (![] : Fin 0 → Fin S256000.rank)
  bcast_S_S20480x8192 : S_.BroadcastsInDim S20480x8192 (![] : Fin 0 → Fin S20480x8192.rank)
  bcast_S256000_S256000x1_0 : S256000.BroadcastsInDim S256000x1 (![0] : Fin 1 → Fin S256000x1.rank)
  concatenates_S256000x1_S256000x1_S256000x2_d1 : Shape.Concatenates [S256000x1, S256000x1] S256000x2 1
  pads_S8000_S8192_01920 : S8000.Pads (![0] : Fin 1 → Nat) ![192] ![0] S8192
  shapeCasts_S8192_S1x8192 : S8192.ShapeCasts S1x8192
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  packedbf16_S256x4096_S256x4096_0_0 : (Rect.unit (s := S256x4096) ![0, 0] S256x4096.size inb_S256x4096_S256x4096_0_0).PackedRows (EltTy.packing .bf16)
  bcast_S_S64000 : S_.BroadcastsInDim S64000 (![] : Fin 0 → Fin S64000.rank)
  bcast_S_S8192x2048 : S_.BroadcastsInDim S8192x2048 (![] : Fin 0 → Fin S8192x2048.rank)
  bcast_S64000_S64000x1_0 : S64000.BroadcastsInDim S64000x1 (![0] : Fin 1 → Fin S64000x1.rank)
  concatenates_S64000x1_S64000x1_S64000x2_d1 : Shape.Concatenates [S64000x1, S64000x1] S64000x2 1
  pads_S2000_S2048_0480 : S2000.Pads (![0] : Fin 1 → Nat) ![48] ![0] S2048
  shapeCasts_S2048_S1x2048 : S2048.ShapeCasts S1x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  bcast_S_S16000 : S_.BroadcastsInDim S16000 (![] : Fin 0 → Fin S16000.rank)
  bcast_S_S2048x512 : S_.BroadcastsInDim S2048x512 (![] : Fin 0 → Fin S2048x512.rank)
  bcast_S16000_S16000x1_0 : S16000.BroadcastsInDim S16000x1 (![0] : Fin 1 → Fin S16000x1.rank)
  concatenates_S16000x1_S16000x1_S16000x2_d1 : Shape.Concatenates [S16000x1, S16000x1] S16000x2 1
  pads_S500_S512_0120 : S500.Pads (![0] : Fin 1 → Nat) ![12] ![0] S512
  shapeCasts_S512_S1x512 : S512.ShapeCasts S1x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  slices_S256x512_S256x500_0_0 : S256x512.Slices ![0, 0] S256x500
  scatter_S20480x8192_S256000x2_S256000_n_01_01_1_wf : ScatterDims.WF S20480x8192 S256000x2 S256000 [] [0, 1] [0, 1] 1
  dot_S256x1024_S1024x4096_S256x4096_1_0_0_1_n_n_wf : DotDims.WF S256x1024 S1024x4096 S256x4096 [1] [0] [0] [1] [] []
  scatter_S8192x2048_S64000x2_S64000_n_01_01_1_wf : ScatterDims.WF S8192x2048 S64000x2 S64000 [] [0, 1] [0, 1] 1
  dot_S256x512_S512x1024_S256x1024_1_0_0_1_n_n_wf : DotDims.WF S256x512 S512x1024 S256x1024 [1] [0] [0] [1] [] []
  scatter_S2048x512_S16000x2_S16000_n_01_01_1_wf : ScatterDims.WF S2048x512 S16000x2 S16000 [] [0, 1] [0, 1] 1
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x20480.size a
  hwx0_0 : ∀ i : grid0.Coords, EltTy.bits .bf16 = 32 ∨ (Rect.block (s := S256x20480) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S20480x8192.size a
  hwx0_1 : ∀ i : grid0.Coords, EltTy.bits .bf16 = 32 ∨ (Rect.block (s := S20480x8192) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x8192.size a
  hwx0_2 : ∀ i : grid0.Coords, EltTy.bits .f32 = 32 ∨ (Rect.block (s := S1x8192) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x8192.size a
  hwx0_3 : ∀ i : grid0.Coords, EltTy.bits .bf16 = 32 ∨ (Rect.block (s := S256x8192) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x8192.size a
  hwx1_0 : ∀ i : grid1.Coords, EltTy.bits .bf16 = 32 ∨ (Rect.block (s := S256x8192) S256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x2048.size a
  hwx1_1 : ∀ i : grid1.Coords, EltTy.bits .bf16 = 32 ∨ (Rect.block (s := S8192x2048) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x2048.size a
  hwx1_3 : ∀ i : grid1.Coords, EltTy.bits .bf16 = 32 ∨ (Rect.block (s := S256x2048) S256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S256x2048.size a
  hwx2_0 : ∀ i : grid2.Coords, EltTy.bits .bf16 = 32 ∨ (Rect.block (s := S256x2048) S256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S2048x512.size a
  hwx2_1 : ∀ i : grid2.Coords, EltTy.bits .bf16 = 32 ∨ (Rect.block (s := S2048x512) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x512.size a
  hwx2_2 : ∀ i : grid2.Coords, EltTy.bits .f32 = 32 ∨ (Rect.block (s := S1x512) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x512.size a
  hwx2_3 : ∀ i : grid2.Coords, EltTy.bits .f32 = 32 ∨ (Rect.block (s := S256x512) S256x256.size (cc2_transform_3 i) (hinb2_3 i)).WholeWords (EltTy.packing .f32)

variable [Facts₀]

def scatter_S20480x8192_S256000x2_S256000_n_01_01_1 : ScatterDims S20480x8192 S256000x2 S256000 where
  updateWindowDims := []
  insertedWindowDims := [0, 1]
  scatterDimsToOperandDims := [0, 1]
  indexVectorDim := 1
  wf := scatter_S20480x8192_S256000x2_S256000_n_01_01_1_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def scatter_S8192x2048_S64000x2_S64000_n_01_01_1 : ScatterDims S8192x2048 S64000x2 S64000 where
  updateWindowDims := []
  insertedWindowDims := [0, 1]
  scatterDimsToOperandDims := [0, 1]
  indexVectorDim := 1
  wf := scatter_S8192x2048_S64000x2_S64000_n_01_01_1_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def scatter_S2048x512_S16000x2_S16000_n_01_01_1 : ScatterDims S2048x512 S16000x2 S16000 where
  updateWindowDims := []
  insertedWindowDims := [0, 1]
  scatterDimsToOperandDims := [0, 1]
  indexVectorDim := 1
  wf := scatter_S2048x512_S16000x2_S16000_n_01_01_1_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v22) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v43) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S256x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S256x20000 : Shape := ⟨2, ![256, 20000]⟩
abbrev S256000 : Shape := ⟨1, ![256000]⟩
abbrev S8000 : Shape := ⟨1, ![8000]⟩
abbrev S64000 : Shape := ⟨1, ![64000]⟩
abbrev S2000 : Shape := ⟨1, ![2000]⟩
abbrev S16000 : Shape := ⟨1, ![16000]⟩
abbrev S500 : Shape := ⟨1, ![500]⟩
abbrev S_ : Shape := ⟨0, ![]⟩
abbrev S256000x1 : Shape := ⟨2, ![256000, 1]⟩
abbrev S256x256000 : Shape := ⟨2, ![256, 256000]⟩
abbrev S1x256000 : Shape := ⟨2, ![1, 256000]⟩
abbrev S256000x256 : Shape := ⟨2, ![256000, 256]⟩
abbrev S8000x256 : Shape := ⟨2, ![8000, 256]⟩
abbrev S256x8000 : Shape := ⟨2, ![256, 8000]⟩
abbrev S1x8000 : Shape := ⟨2, ![1, 8000]⟩
abbrev S64000x1 : Shape := ⟨2, ![64000, 1]⟩
abbrev S256x64000 : Shape := ⟨2, ![256, 64000]⟩
abbrev S1x64000 : Shape := ⟨2, ![1, 64000]⟩
abbrev S64000x256 : Shape := ⟨2, ![64000, 256]⟩
abbrev S2000x256 : Shape := ⟨2, ![2000, 256]⟩
abbrev S256x2000 : Shape := ⟨2, ![256, 2000]⟩
abbrev S1x2000 : Shape := ⟨2, ![1, 2000]⟩
abbrev S16000x1 : Shape := ⟨2, ![16000, 1]⟩
abbrev S256x16000 : Shape := ⟨2, ![256, 16000]⟩
abbrev S1x16000 : Shape := ⟨2, ![1, 16000]⟩
abbrev S16000x256 : Shape := ⟨2, ![16000, 256]⟩
abbrev S500x256 : Shape := ⟨2, ![500, 256]⟩
abbrev S256x500 : Shape := ⟨2, ![256, 500]⟩
abbrev S1x500 : Shape := ⟨2, ![1, 500]⟩

abbrev nBuf : Space → Nat
  | .hbm => 82
  | .vmem => 0
  | .smem => 0
  | _ => 0

abbrev bufTy : (tb : Table) → Fin (tcTables nBuf tb) → BufTy
  | .hbm, ⟨0, _⟩ => ⟨S256x20000, .f32⟩
  | .hbm, ⟨1, _⟩ => ⟨S256000, .i32⟩
  | .hbm, ⟨2, _⟩ => ⟨S256000, .i32⟩
  | .hbm, ⟨3, _⟩ => ⟨S256000, .f32⟩
  | .hbm, ⟨4, _⟩ => ⟨S8000, .f32⟩
  | .hbm, ⟨5, _⟩ => ⟨S64000, .i32⟩
  | .hbm, ⟨6, _⟩ => ⟨S64000, .i32⟩
  | .hbm, ⟨7, _⟩ => ⟨S64000, .f32⟩
  | .hbm, ⟨8, _⟩ => ⟨S2000, .f32⟩
  | .hbm, ⟨9, _⟩ => ⟨S16000, .i32⟩
  | .hbm, ⟨10, _⟩ => ⟨S16000, .i32⟩
  | .hbm, ⟨11, _⟩ => ⟨S16000, .f32⟩
  | .hbm, ⟨12, _⟩ => ⟨S500, .f32⟩
  | .hbm, ⟨13, _⟩ => ⟨S_, .i32⟩
  | .hbm, ⟨14, _⟩ => ⟨S256000, .i32⟩
  | .hbm, ⟨15, _⟩ => ⟨S256000, .i1⟩
  | .hbm, ⟨16, _⟩ => ⟨S_, .i32⟩
  | .hbm, ⟨17, _⟩ => ⟨S256000, .i32⟩
  | .hbm, ⟨18, _⟩ => ⟨S256000, .i32⟩
  | .hbm, ⟨19, _⟩ => ⟨S256000, .i32⟩
  | .hbm, ⟨20, _⟩ => ⟨S256000x1, .i32⟩
  | .hbm, ⟨21, _⟩ => ⟨S256x256000, .f32⟩
  | .hbm, ⟨22, _⟩ => ⟨S1x256000, .f32⟩
  | .hbm, ⟨23, _⟩ => ⟨S256x256000, .f32⟩
  | .hbm, ⟨24, _⟩ => ⟨S256x256000, .f32⟩
  | .hbm, ⟨25, _⟩ => ⟨S256000x256, .f32⟩
  | .hbm, ⟨26, _⟩ => ⟨S_, .f32⟩
  | .hbm, ⟨27, _⟩ => ⟨S8000x256, .f32⟩
  | .hbm, ⟨28, _⟩ => ⟨S256000x1, .i32⟩
  | .hbm, ⟨29, _⟩ => ⟨S8000x256, .f32⟩
  | .hbm, ⟨30, _⟩ => ⟨S256x8000, .f32⟩
  | .hbm, ⟨31, _⟩ => ⟨S1x8000, .f32⟩
  | .hbm, ⟨32, _⟩ => ⟨S256x8000, .f32⟩
  | .hbm, ⟨33, _⟩ => ⟨S256x8000, .f32⟩
  | .hbm, ⟨34, _⟩ => ⟨S_, .f32⟩
  | .hbm, ⟨35, _⟩ => ⟨S256x8000, .f32⟩
  | .hbm, ⟨36, _⟩ => ⟨S256x8000, .f32⟩
  | .hbm, ⟨37, _⟩ => ⟨S_, .i32⟩
  | .hbm, ⟨38, _⟩ => ⟨S64000, .i32⟩
  | .hbm, ⟨39, _⟩ => ⟨S64000, .i1⟩
  | .hbm, ⟨40, _⟩ => ⟨S_, .i32⟩
  | .hbm, ⟨41, _⟩ => ⟨S64000, .i32⟩
  | .hbm, ⟨42, _⟩ => ⟨S64000, .i32⟩
  | .hbm, ⟨43, _⟩ => ⟨S64000, .i32⟩
  | .hbm, ⟨44, _⟩ => ⟨S64000x1, .i32⟩
  | .hbm, ⟨45, _⟩ => ⟨S256x64000, .f32⟩
  | .hbm, ⟨46, _⟩ => ⟨S1x64000, .f32⟩
  | .hbm, ⟨47, _⟩ => ⟨S256x64000, .f32⟩
  | .hbm, ⟨48, _⟩ => ⟨S256x64000, .f32⟩
  | .hbm, ⟨49, _⟩ => ⟨S64000x256, .f32⟩
  | .hbm, ⟨50, _⟩ => ⟨S_, .f32⟩
  | .hbm, ⟨51, _⟩ => ⟨S2000x256, .f32⟩
  | .hbm, ⟨52, _⟩ => ⟨S64000x1, .i32⟩
  | .hbm, ⟨53, _⟩ => ⟨S2000x256, .f32⟩
  | .hbm, ⟨54, _⟩ => ⟨S256x2000, .f32⟩
  | .hbm, ⟨55, _⟩ => ⟨S1x2000, .f32⟩
  | .hbm, ⟨56, _⟩ => ⟨S256x2000, .f32⟩
  | .hbm, ⟨57, _⟩ => ⟨S256x2000, .f32⟩
  | .hbm, ⟨58, _⟩ => ⟨S_, .f32⟩
  | .hbm, ⟨59, _⟩ => ⟨S256x2000, .f32⟩
  | .hbm, ⟨60, _⟩ => ⟨S256x2000, .f32⟩
  | .hbm, ⟨61, _⟩ => ⟨S_, .i32⟩
  | .hbm, ⟨62, _⟩ => ⟨S16000, .i32⟩
  | .hbm, ⟨63, _⟩ => ⟨S16000, .i1⟩
  | .hbm, ⟨64, _⟩ => ⟨S_, .i32⟩
  | .hbm, ⟨65, _⟩ => ⟨S16000, .i32⟩
  | .hbm, ⟨66, _⟩ => ⟨S16000, .i32⟩
  | .hbm, ⟨67, _⟩ => ⟨S16000, .i32⟩
  | .hbm, ⟨68, _⟩ => ⟨S16000x1, .i32⟩
  | .hbm, ⟨69, _⟩ => ⟨S256x16000, .f32⟩
  | .hbm, ⟨70, _⟩ => ⟨S1x16000, .f32⟩
  | .hbm, ⟨71, _⟩ => ⟨S256x16000, .f32⟩
  | .hbm, ⟨72, _⟩ => ⟨S256x16000, .f32⟩
  | .hbm, ⟨73, _⟩ => ⟨S16000x256, .f32⟩
  | .hbm, ⟨74, _⟩ => ⟨S_, .f32⟩
  | .hbm, ⟨75, _⟩ => ⟨S500x256, .f32⟩
  | .hbm, ⟨76, _⟩ => ⟨S16000x1, .i32⟩
  | .hbm, ⟨77, _⟩ => ⟨S500x256, .f32⟩
  | .hbm, ⟨78, _⟩ => ⟨S256x500, .f32⟩
  | .hbm, ⟨79, _⟩ => ⟨S1x500, .f32⟩
  | .hbm, ⟨80, _⟩ => ⟨S256x500, .f32⟩
  | .hbm, ⟨81, _⟩ => ⟨S256x500, .f32⟩
  | _, _ => ⟨S256x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]

class Facts₀ : Prop where
  bcast_S_S256000 : S_.BroadcastsInDim S256000 (![] : Fin 0 → Fin S256000.rank)
  bcast_S256000_S256000x1_0 : S256000.BroadcastsInDim S256000x1 (![0] : Fin 1 → Fin S256000x1.rank)
  bcast_S256000_S1x256000_1 : S256000.BroadcastsInDim S1x256000 (![1] : Fin 1 → Fin S1x256000.rank)
  bcast_S1x256000_S256x256000_0_1 : S1x256000.BroadcastsInDim S256x256000 (![0, 1] : Fin 2 → Fin S256x256000.rank)
  transposes_S256x256000_S256000x256_1_0 : S256x256000.Transposes [1, 0] S256000x256
  bcast_S_S8000x256 : S_.BroadcastsInDim S8000x256 (![] : Fin 0 → Fin S8000x256.rank)
  transposes_S8000x256_S256x8000_1_0 : S8000x256.Transposes [1, 0] S256x8000
  bcast_S8000_S1x8000_1 : S8000.BroadcastsInDim S1x8000 (![1] : Fin 1 → Fin S1x8000.rank)
  bcast_S1x8000_S256x8000_0_1 : S1x8000.BroadcastsInDim S256x8000 (![0, 1] : Fin 2 → Fin S256x8000.rank)
  bcast_S_S256x8000 : S_.BroadcastsInDim S256x8000 (![] : Fin 0 → Fin S256x8000.rank)
  bcast_S_S64000 : S_.BroadcastsInDim S64000 (![] : Fin 0 → Fin S64000.rank)
  bcast_S64000_S64000x1_0 : S64000.BroadcastsInDim S64000x1 (![0] : Fin 1 → Fin S64000x1.rank)
  bcast_S64000_S1x64000_1 : S64000.BroadcastsInDim S1x64000 (![1] : Fin 1 → Fin S1x64000.rank)
  bcast_S1x64000_S256x64000_0_1 : S1x64000.BroadcastsInDim S256x64000 (![0, 1] : Fin 2 → Fin S256x64000.rank)
  transposes_S256x64000_S64000x256_1_0 : S256x64000.Transposes [1, 0] S64000x256
  bcast_S_S2000x256 : S_.BroadcastsInDim S2000x256 (![] : Fin 0 → Fin S2000x256.rank)
  transposes_S2000x256_S256x2000_1_0 : S2000x256.Transposes [1, 0] S256x2000
  bcast_S2000_S1x2000_1 : S2000.BroadcastsInDim S1x2000 (![1] : Fin 1 → Fin S1x2000.rank)
  bcast_S1x2000_S256x2000_0_1 : S1x2000.BroadcastsInDim S256x2000 (![0, 1] : Fin 2 → Fin S256x2000.rank)
  bcast_S_S256x2000 : S_.BroadcastsInDim S256x2000 (![] : Fin 0 → Fin S256x2000.rank)
  bcast_S_S16000 : S_.BroadcastsInDim S16000 (![] : Fin 0 → Fin S16000.rank)
  bcast_S16000_S16000x1_0 : S16000.BroadcastsInDim S16000x1 (![0] : Fin 1 → Fin S16000x1.rank)
  bcast_S16000_S1x16000_1 : S16000.BroadcastsInDim S1x16000 (![1] : Fin 1 → Fin S1x16000.rank)
  bcast_S1x16000_S256x16000_0_1 : S1x16000.BroadcastsInDim S256x16000 (![0, 1] : Fin 2 → Fin S256x16000.rank)
  transposes_S256x16000_S16000x256_1_0 : S256x16000.Transposes [1, 0] S16000x256
  bcast_S_S500x256 : S_.BroadcastsInDim S500x256 (![] : Fin 0 → Fin S500x256.rank)
  transposes_S500x256_S256x500_1_0 : S500x256.Transposes [1, 0] S256x500
  bcast_S500_S1x500_1 : S500.BroadcastsInDim S1x500 (![1] : Fin 1 → Fin S1x500.rank)
  bcast_S1x500_S256x500_0_1 : S1x500.BroadcastsInDim S256x500 (![0, 1] : Fin 2 → Fin S256x500.rank)
  gather_S256x20000_S256000x1_S256x256000_0_1_n_n_1_1_2561_wf : GatherDims.WF S256x20000 S256000x1 S256x256000 [0] [1] [] [1] [] 1 ![256, 1]
  scatter_S8000x256_S256000x1_S256000x256_1_0_0_1_wf : ScatterDims.WF S8000x256 S256000x1 S256000x256 [1] [0] [0] 1
  gather_S256x8000_S64000x1_S256x64000_0_1_n_n_1_1_2561_wf : GatherDims.WF S256x8000 S64000x1 S256x64000 [0] [1] [] [1] [] 1 ![256, 1]
  scatter_S2000x256_S64000x1_S64000x256_1_0_0_1_wf : ScatterDims.WF S2000x256 S64000x1 S64000x256 [1] [0] [0] 1
  gather_S256x2000_S16000x1_S256x16000_0_1_n_n_1_1_2561_wf : GatherDims.WF S256x2000 S16000x1 S256x16000 [0] [1] [] [1] [] 1 ![256, 1]
  scatter_S500x256_S16000x1_S16000x256_1_0_0_1_wf : ScatterDims.WF S500x256 S16000x1 S16000x256 [1] [0] [0] 1

variable [Facts₀]

def gather_S256x20000_S256000x1_S256x256000_0_1_n_n_1_1_2561 : GatherDims S256x20000 S256000x1 S256x256000 where
  offsetDims := [0]
  collapsedSliceDims := [1]
  operandBatchingDims := []
  startIndicesBatchingDims := []
  startIndexMap := [1]
  indexVectorDim := 1
  sliceSizes := ![256, 1]
  wf := gather_S256x20000_S256000x1_S256x256000_0_1_n_n_1_1_2561_wf
def scatter_S8000x256_S256000x1_S256000x256_1_0_0_1 : ScatterDims S8000x256 S256000x1 S256000x256 where
  updateWindowDims := [1]
  insertedWindowDims := [0]
  scatterDimsToOperandDims := [0]
  indexVectorDim := 1
  wf := scatter_S8000x256_S256000x1_S256000x256_1_0_0_1_wf
def gather_S256x8000_S64000x1_S256x64000_0_1_n_n_1_1_2561 : GatherDims S256x8000 S64000x1 S256x64000 where
  offsetDims := [0]
  collapsedSliceDims := [1]
  operandBatchingDims := []
  startIndicesBatchingDims := []
  startIndexMap := [1]
  indexVectorDim := 1
  sliceSizes := ![256, 1]
  wf := gather_S256x8000_S64000x1_S256x64000_0_1_n_n_1_1_2561_wf
def scatter_S2000x256_S64000x1_S64000x256_1_0_0_1 : ScatterDims S2000x256 S64000x1 S64000x256 where
  updateWindowDims := [1]
  insertedWindowDims := [0]
  scatterDimsToOperandDims := [0]
  indexVectorDim := 1
  wf := scatter_S2000x256_S64000x1_S64000x256_1_0_0_1_wf
def gather_S256x2000_S16000x1_S256x16000_0_1_n_n_1_1_2561 : GatherDims S256x2000 S16000x1 S256x16000 where
  offsetDims := [0]
  collapsedSliceDims := [1]
  operandBatchingDims := []
  startIndicesBatchingDims := []
  startIndexMap := [1]
  indexVectorDim := 1
  sliceSizes := ![256, 1]
  wf := gather_S256x2000_S16000x1_S256x16000_0_1_n_n_1_1_2561_wf
def scatter_S500x256_S16000x1_S16000x256_1_0_0_1 : ScatterDims S500x256 S16000x1 S16000x256 where
  updateWindowDims := [1]
  insertedWindowDims := [0]
  scatterDimsToOperandDims := [0]
  indexVectorDim := 1
  wf := scatter_S500x256_S16000x1_S16000x256_1_0_0_1_wf

class Facts : Prop extends Facts₀ where

variable [Facts]
-- ==== Proof.LibBody.lean ====
import Idealize.ShloMosaic.Lib.Pipeline.FrameBody
import Idealize.ShloMosaic.Lib.Pipeline.Value

namespace Idealize.ShloMosaic

open Idealize.SL Idealize.SL.BI Idealize.SL.RA TcCoe
open scoped Idealize.SL.BI

namespace View

variable {Val : EltTy → Type} [∀ e, Nonempty (Val e)] {S : Shape} {e : EltTy}

theorem hz2 : (![0, 0] : Fin 2 → Nat) = fun _ => 0 := funext fun a => by fin_cases a <;> rfl

/-- A store over the whole shape, made last, leaves its payload whatever was stored before. -/
theorem read_writes_unit_zero {sig : RefSig} {κ : Kind} {sp : Space} (v : View sig κ sp S e) (f : v.ty.Contents Val)
    {off : Fin S.rank → Nat} (hz : off = fun _ => 0) (inb : ∀ a, off a + S.size a ≤ S.size a) (w : S.Idx → Val e)
    (L : List (Piece Val S e)) : v.read Val (v.writes Val f (⟨Rect.unit off S.size inb, w⟩ :: L)) = w :=
  (read_writes_eq_canon v f _ fun y => ⟨_, List.mem_cons_self, mem_set_unit_zero hz inb y⟩).trans
    (canon_cons_unit_zero hz inb w L)

/-- A load of the whole shape after such a store reads its payload. -/
theorem readCov_cons_unit_zero {sig : RefSig} {κ : Kind} {sp : Space} (v : View sig κ sp S e)
    {off : Fin S.rank → Nat} (hz : off = fun _ => 0) (inb : ∀ a, off a + S.size a ≤ S.size a) (w : S.Idx → Val e)
    (L : List (Piece Val S e)) : v.readCov (⟨Rect.unit off S.size inb, w⟩ :: L) (Rect.unit off S.size inb).toLoadRect = w := by
  rw [readCov_eq_canon_ld _ _ _ fun y => ⟨_, List.mem_cons_self, mem_set_unit_zero hz inb y⟩, canon_cons_unit_zero hz,
    ld_unit_zero hz]

end View

namespace Pipeline.Dat

variable {nD : Nat} {τ : Topo} {sig : RefSig} {Val : EltTy → Type} {Λ₀ : SL.Sem.Labels}
  {Ix : Type} [DecidableEq Ix] {Name : Type} [DecidableEq Name] {U : Type} [URA U] {Lvl : Type}
  {cfg : Cfg sig Λ₀} {c : Dev nD} (dat : Dat τ Val Ix Name U Lvl cfg c)

theorem leavesExact_live (w : Fin cfg.W) (t : Fin cfg.N) (h : cfg.idle w (cfg.grid.coords t) = false) :
    dat.leavesExact w t = owns c ((cfg.win w).stage (cfg.slots t w)) fullShare (dat.after w t) := by
  unfold Dat.leavesExact; rw [h]

end Pipeline.Dat

end Idealize.ShloMosaic
-- ==== Proof.K.R0Shared.lean ====
import proofs.«402315_j14740327760019_3_alg».proof.Proof.Gen.Kernel.Launch
import proofs.«402315_j14740327760019_3_alg».proof.Proof.Gen.Kernel.Skeleton
import proofs.«402315_j14740327760019_3_alg».proof.Proof.Gen.Kernel.Points
import proofs.«402315_j14740327760019_3_alg».proof.Proof.LibBody
import Idealize.ShloMosaic.Lib.Pipeline.Regions
import Idealize.ShloMosaic.Lib.Tactic

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem live0 : ∀ (w : Fin cfg0.W) (t : Fin cfg0.N), w ≠ 3 ∨ t.val % 20 = 19 → cfg0.idle w (grid0.coords t) = false := by decide +kernel
theorem idle0_3 : ∀ t : Fin cfg0.N, t.val % 20 ≠ 19 → cfg0.idle 3 (grid0.coords t) = true ∧ (cfg0.win 3).flush t = false := by decide +kernel

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev scM0_0 : Memref sig .tc .vmem S256x4096 .f32 := Memref.whole cc0_scratch0

abbrev oth0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ oth0 (F := F) c) ∗ (∃ r, prngReg c r)) := by
  unfold Pipeline.ΦA; rw [Pipeline.scopedRest_split_of_list spec0 c [cc0_scratch0] (by decide) (by decide)]
  simp only [scM0_0, owns_whole]; rfl

end Cert.Kernel.Gen

end
-- ==== Proof.K.R0Run.lean ====
import proofs.«402315_j14740327760019_3_alg».proof.Proof.K.R0Shared

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (c : Dev nD) (i : grid0.Coords) (arg2 : Memref sig .tc .vmem S256x1024 .bf16) (harg2 : arg2.IsWhole)
  (arg3 : Memref sig .tc .vmem S1024x4096 .bf16) (harg3 : arg3.IsWhole) (arg4 : Memref sig .tc .vmem S1x4096 .f32) (harg4 : arg4.IsWhole)
  (arg5 : Memref sig .tc .vmem S256x4096 .bf16) (harg5 : arg5.IsWhole) (arg6 : Memref sig .tc .vmem S256x4096 .f32) (harg6 : arg6.IsWhole)
  (x0 : Vec F S256x1024 .bf16) (x1 : Vec F S1024x4096 .bf16) (x2 : Vec F S1x4096 .f32)

/-- The body at a grid point: the accumulator, cleared first where the point opens a row of the grid, gains the block product; where the point closes the row the output block is the last payload of it and the bias row, elsewhere as found. -/
theorem run0 (xi3 O : Vec F S256x4096 .bf16) (xs0 A : Vec F S256x4096 .f32)
    (hA : A = k0_pay2 (if cond0_0 i then k0_pay1 else xs0) x0 x1) (hO : O = if cond0_1 i then k0_pay3 A x2 else xi3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare O ∗ owns (c : Thread nD τ) arg6 fullShare A) -∗ K ⟨⟩))
      ⊢ wp frame (wpE (defs₀ (F := F)) Variants.none c none) E (cc0__mm_kernel i arg2 harg2 arg3 harg3 arg4 harg4 arg5 harg5 arg6 harg6) K := by
  subst hA hO
  by_cases hc0 : cond0_0 i <;> by_cases hc1 : cond0_1 i <;>
    (first | rw [if_pos hc0] | rw [if_neg hc0]) <;> (first | rw [if_pos hc1] | rw [if_neg hc1]) <;> (
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; first | (sl_unfold_words; rw [View.read_writes_unit_zero _ _ View.hz2]; simp only [View.readAt_eq_ld, hf0, hf1, hf2, hfs0, View.ld_unit_zero (S := S256x1024) View.hz2, View.ld_unit_zero (S := S1024x4096) View.hz2, View.ld_unit_zero (S := S256x4096) View.hz2, View.ld_unit_zero (S := S1x4096) View.hz2, View.readCov_cons_unit_zero (S := S256x4096) _ View.hz2]) | exact hf3
    iexists _; isplitr; swap; · iexact HS0
    ipureintro; sl_unfold_words; rw [View.read_writes_unit_zero _ _ View.hz2]; simp only [View.readAt_eq_ld, hf0, hf1, hf2, hfs0, View.ld_unit_zero (S := S256x1024) View.hz2, View.ld_unit_zero (S := S1024x4096) View.hz2, View.ld_unit_zero (S := S256x4096) View.hz2, View.ld_unit_zero (S := S1x4096) View.hz2, View.readCov_cons_unit_zero (S := S256x4096) _ View.hz2])

end Cert.Kernel.Gen

end
-- ==== Proof.K.R0Body.lean ====
import proofs.«402315_j14740327760019_3_alg».proof.Proof.K.R0Run

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the block product added to the cleared accumulator at the first step of a row of the grid, elsewhere to what the position before left. -/
def accAt0 (c : Dev nD) : (n : ℕ) → n < cfg0.N → Vec F S256x4096 .f32
  | 0, hn => k0_pay2 k0_pay1 (iblk0 V c 0 ⟨0, hn⟩) (iblk0 V c 1 ⟨0, hn⟩)
  | n + 1, hn => k0_pay2 (if (n + 1) % 20 = 0 then k0_pay1 else accAt0 c n (Nat.lt_of_succ_lt hn)) (iblk0 V c 0 ⟨n + 1, hn⟩) (iblk0 V c 1 ⟨n + 1, hn⟩)

theorem accAt0_first (c : Dev nD) (t : Fin cfg0.N) (h0 : t.val % 20 = 0) :
    accAt0 V c t.val t.isLt = k0_pay2 k0_pay1 (iblk0 V c 0 t) (iblk0 V c 1 t) := by
  obtain ⟨n, hn⟩ := t
  cases n with
  | zero => rfl
  | succ n => unfold accAt0; rw [if_pos h0]

theorem accAt0_next (c : Dev nD) (t : Fin cfg0.N) (h0 : ¬t.val % 20 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => rw [accAt0, if_neg h0]; rfl

/-- The same step from any contents that are the position before's where there is one: the first point clears them. -/
theorem accAt0_step (c : Dev nD) (t : Fin cfg0.N) (xs0 : Vec F S256x4096 .f32)
    (h : ∀ hz : t.val ≠ 0, xs0 = accAt0 V c (t.val - 1) (by omega)) :
    accAt0 V c t.val t.isLt = k0_pay2 (if cond0_0 (grid0.coords t) then k0_pay1 else xs0) (iblk0 V c 0 t) (iblk0 V c 1 t) := by
  by_cases h0 : t.val % 20 = 0
  · rw [if_pos ((hcond0_0 t).mpr h0), accAt0_first V c t h0]
  · rw [if_neg fun hc => h0 ((hcond0_0 t).mp hc), accAt0_next V c t h0, h fun e => h0 (by rw [e])]

/-- The output block and the accumulator after position `n`. -/
def outsAt0 (c : Dev nD) (n : ℕ) (hn : n < cfg0.N) : Vec F S256x4096 .bf16 × Vec F S256x4096 .f32 :=
  (k0_pay3 (accAt0 V c n hn) (iblk0 V c 2 ⟨n, hn⟩), accAt0 V c n hn)

def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ oth0 (F := F) c) ∗ (∃ r, prngReg c r))

theorem PhiS0_open (c : Dev nD) (n : ℕ) (h : n ≤ cfg0.N) :
    PhiS0 V c n h ⊢ iprop(∃ xs0, ⌜∀ hz : n ≠ 0, xs0 = accAt0 V c (n - 1) (by omega)⌝ ∗ owns (c : Thread nD τ) scM0_0 fullShare xs0 ∗ oth0 (F := F) c ∗ (∃ r, prngReg c r)) := by
  cases n with
  | zero =>
    rw [PhiS0, PhiA0_eq]
    iintro ⟨⟨⟨%d, HS0⟩, Hoth⟩, Hg⟩
    iexists d; isplitr; · ipureintro; exact fun hz => absurd rfl hz
    isplitl [HS0]; · iexact HS0
    isplitl [Hoth]; · iexact Hoth
    iexact Hg
  | succ n =>
    rw [PhiS0]
    iintro ⟨⟨HS0, Hoth⟩, Hg⟩
    iexists accAt0 V c n h; isplitr; · ipureintro; exact fun _ => rfl
    isplitl [HS0]; · iexact HS0
    isplitl [Hoth]; · iexact Hoth
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
      ⊢ wp frame (wpE (defs₀ (F := F)) Variants.none c none) Set.univ (bodyAt0 t) (fun _ =>
        iprop((dat0 V c).Φ t.succ ∗ (dat0 V c).owesAt () t.succ ∗ (dat0 V c).leavesExact 0 t ∗ (dat0 V c).leavesExact 1 t
          ∗ (dat0 V c).leavesExact 2 t ∗ (dat0 V c).leavesExact 3 t)) := by
  unfold bodyAt0
  simp only [before0_0, before0_1, before0_2]
  rw [show (dat0 V c).owesAt () t.succ = (dat0 V c).owesAt () t.castSucc from rfl,
    show (dat0 V c).Φ t.succ = iprop(iprop(owns (c : Thread nD τ) scM0_0 fullShare (accAt0 V c t.val t.isLt) ∗ oth0 (F := F) c) ∗ (∃ r, prngReg c r)) from rfl,
    show (dat0 V c).Φ t.castSucc = PhiS0 V c t.val (Nat.le_of_lt t.isLt) from rfl,
    (dat0 V c).leavesExact_live 0 t (live0 0 t (.inl (by decide))), (dat0 V c).leavesExact_live 1 t (live0 1 t (.inl (by decide))),
    (dat0 V c).leavesExact_live 2 t (live0 2 t (.inl (by decide)))]
  have key : ∀ d3, ∃ O, O = (if cond0_1 (grid0.coords t) then k0_pay3 (accAt0 V c t.val t.isLt) (iblk0 V c 2 t) else (dat0 V c).before 3 t d3)
      ∧ (owns (c : Thread nD τ) (ms0_3 t) fullShare O ⊢ (dat0 V c).leavesExact 3 t) := fun d3 => by
    by_cases h1 : t.val % 20 = 19
    · exact ⟨(dat0 V c).after 3 t, (if_pos ((hcond0_1 t).mpr h1)).symm, by
        rw [(dat0 V c).leavesExact_live 3 t (live0 3 t (.inr h1))]⟩
    · exact ⟨_, (if_neg fun h => h1 ((hcond0_1 t).mp h)).symm, by
        rw [Dat.leavesExact_idle (dat0 V c) 3 t (idle0_3 t h1).1 (idle0_3 t h1).2]; iintro H; iexists _; iexact H⟩
  iintro ⟨HΦ, Ho, ⟨%d0, H0⟩, ⟨%d1, H1⟩, ⟨%d2, H2⟩, ⟨%d3, H3⟩⟩
  obtain ⟨O, hO, hL⟩ := key d3
  ihave HΦ := (PhiS0_open V c _ _) $$ HΦ
  icases HΦ with ⟨%xs0, %hxs, HS0, Hoth, Hg⟩
  iapply (run0 c (grid0.coords t) _ (hs0_0 t) _ (hs0_1 t) _ (hs0_2 t) _ (hs0_3 t) _ (Memref.isWhole_whole _) (iblk0 V c 0 t) (iblk0 V c 1 t) (iblk0 V c 2 t)
    _ O xs0 _ (accAt0_step V c t xs0 hxs) hO Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hoth Hg]
  · isplitl [HS0 Hoth]
    · isplitl [HS0]; · iexact HS0
      iexact Hoth
    iexact Hg
  isplitl [Ho]; · iexact Ho
  isplitl [H0]; · iexact H0
  isplitl [H1]; · iexact H1
  isplitl [H2]; · iexact H2
  iapply hL; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]
  refine (PhiS0_open V c cfg0.N le_rfl).trans ?_
  iintro ⟨%xs0, -, HS0, Hoth, Hg⟩
  isplitl [HS0 Hoth]
  · isplitl [HS0]; · iexists _; iexact HS0
    iexact Hoth
  iexact Hg

end Cert.Kernel.Gen

end
-- ==== Proof.K.R1Shared.lean ====
import proofs.«402315_j14740327760019_3_alg».proof.Proof.Gen.Kernel.Launch
import proofs.«402315_j14740327760019_3_alg».proof.Proof.Gen.Kernel.Skeleton
import proofs.«402315_j14740327760019_3_alg».proof.Proof.Gen.Kernel.Points
import proofs.«402315_j14740327760019_3_alg».proof.Proof.LibBody
import Idealize.ShloMosaic.Lib.Pipeline.Regions
import Idealize.ShloMosaic.Lib.Tactic

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem live1 : ∀ (w : Fin cfg1.W) (t : Fin cfg1.N), w ≠ 3 ∨ t.val % 16 = 15 → cfg1.idle w (grid1.coords t) = false := by decide +kernel
theorem idle1_3 : ∀ t : Fin cfg1.N, t.val % 16 ≠ 15 → cfg1.idle 3 (grid1.coords t) = true ∧ (cfg1.win 3).flush t = false := by decide +kernel

abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev scM1_0 : Memref sig .tc .vmem S256x1024 .f32 := Memref.whole cc1_scratch0

abbrev oth1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ oth1 (F := F) c) ∗ (∃ r, prngReg c r)) := by
  unfold Pipeline.ΦA; rw [Pipeline.scopedRest_split_of_list spec1 c [cc1_scratch0] (by decide) (by decide)]
  simp only [scM1_0, owns_whole]; rfl

end Cert.Kernel.Gen

end
-- ==== Proof.K.R1Run.lean ====
import proofs.«402315_j14740327760019_3_alg».proof.Proof.K.R1Shared

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (c : Dev nD) (i : grid1.Coords) (arg2 : Memref sig .tc .vmem S256x512 .bf16) (harg2 : arg2.IsWhole)
  (arg3 : Memref sig .tc .vmem S512x1024 .bf16) (harg3 : arg3.IsWhole) (arg4 : Memref sig .tc .vmem S1x1024 .f32) (harg4 : arg4.IsWhole)
  (arg5 : Memref sig .tc .vmem S256x1024 .bf16) (harg5 : arg5.IsWhole) (arg6 : Memref sig .tc .vmem S256x1024 .f32) (harg6 : arg6.IsWhole)
  (x0 : Vec F S256x512 .bf16) (x1 : Vec F S512x1024 .bf16) (x2 : Vec F S1x1024 .f32)

/-- The body at a grid point: the accumulator, cleared first where the point opens a row of the grid, gains the block product; where the point closes the row the output block is the last payload of it and the bias row, elsewhere as found. -/
theorem run1 (xi3 O : Vec F S256x1024 .bf16) (xs0 A : Vec F S256x1024 .f32)
    (hA : A = k1_pay2 (if cond1_0 i then k1_pay1 else xs0) x0 x1) (hO : O = if cond1_1 i then k1_pay3 A x2 else xi3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare O ∗ owns (c : Thread nD τ) arg6 fullShare A) -∗ K ⟨⟩))
      ⊢ wp frame (wpE (defs₀ (F := F)) Variants.none c none) E (cc1__mm_kernel i arg2 harg2 arg3 harg3 arg4 harg4 arg5 harg5 arg6 harg6) K := by
  subst hA hO
  by_cases hc0 : cond1_0 i <;> by_cases hc1 : cond1_1 i <;>
    (first | rw [if_pos hc0] | rw [if_neg hc0]) <;> (first | rw [if_pos hc1] | rw [if_neg hc1]) <;> (
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; first | (sl_unfold_words; rw [View.read_writes_unit_zero _ _ View.hz2]; simp only [View.readAt_eq_ld, hf0, hf1, hf2, hfs0, View.ld_unit_zero (S := S256x512) View.hz2, View.ld_unit_zero (S := S512x1024) View.hz2, View.ld_unit_zero (S := S256x1024) View.hz2, View.ld_unit_zero (S := S1x1024) View.hz2, View.readCov_cons_unit_zero (S := S256x1024) _ View.hz2]) | exact hf3
    iexists _; isplitr; swap; · iexact HS0
    ipureintro; sl_unfold_words; rw [View.read_writes_unit_zero _ _ View.hz2]; simp only [View.readAt_eq_ld, hf0, hf1, hf2, hfs0, View.ld_unit_zero (S := S256x512) View.hz2, View.ld_unit_zero (S := S512x1024) View.hz2, View.ld_unit_zero (S := S256x1024) View.hz2, View.ld_unit_zero (S := S1x1024) View.hz2, View.readCov_cons_unit_zero (S := S256x1024) _ View.hz2])

end Cert.Kernel.Gen

end
-- ==== Proof.K.R1Body.lean ====
import proofs.«402315_j14740327760019_3_alg».proof.Proof.K.R1Run

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the block product added to the cleared accumulator at the first step of a row of the grid, elsewhere to what the position before left. -/
def accAt1 (c : Dev nD) : (n : ℕ) → n < cfg1.N → Vec F S256x1024 .f32
  | 0, hn => k1_pay2 k1_pay1 (iblk1 V c 0 ⟨0, hn⟩) (iblk1 V c 1 ⟨0, hn⟩)
  | n + 1, hn => k1_pay2 (if (n + 1) % 16 = 0 then k1_pay1 else accAt1 c n (Nat.lt_of_succ_lt hn)) (iblk1 V c 0 ⟨n + 1, hn⟩) (iblk1 V c 1 ⟨n + 1, hn⟩)

theorem accAt1_first (c : Dev nD) (t : Fin cfg1.N) (h0 : t.val % 16 = 0) :
    accAt1 V c t.val t.isLt = k1_pay2 k1_pay1 (iblk1 V c 0 t) (iblk1 V c 1 t) := by
  obtain ⟨n, hn⟩ := t
  cases n with
  | zero => rfl
  | succ n => unfold accAt1; rw [if_pos h0]

theorem accAt1_next (c : Dev nD) (t : Fin cfg1.N) (h0 : ¬t.val % 16 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => rw [accAt1, if_neg h0]; rfl

/-- The same step from any contents that are the position before's where there is one: the first point clears them. -/
theorem accAt1_step (c : Dev nD) (t : Fin cfg1.N) (xs0 : Vec F S256x1024 .f32)
    (h : ∀ hz : t.val ≠ 0, xs0 = accAt1 V c (t.val - 1) (by omega)) :
    accAt1 V c t.val t.isLt = k1_pay2 (if cond1_0 (grid1.coords t) then k1_pay1 else xs0) (iblk1 V c 0 t) (iblk1 V c 1 t) := by
  by_cases h0 : t.val % 16 = 0
  · rw [if_pos ((hcond1_0 t).mpr h0), accAt1_first V c t h0]
  · rw [if_neg fun hc => h0 ((hcond1_0 t).mp hc), accAt1_next V c t h0, h fun e => h0 (by rw [e])]

/-- The output block and the accumulator after position `n`. -/
def outsAt1 (c : Dev nD) (n : ℕ) (hn : n < cfg1.N) : Vec F S256x1024 .bf16 × Vec F S256x1024 .f32 :=
  (k1_pay3 (accAt1 V c n hn) (iblk1 V c 2 ⟨n, hn⟩), accAt1 V c n hn)

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ oth1 (F := F) c) ∗ (∃ r, prngReg c r))

theorem PhiS1_open (c : Dev nD) (n : ℕ) (h : n ≤ cfg1.N) :
    PhiS1 V c n h ⊢ iprop(∃ xs0, ⌜∀ hz : n ≠ 0, xs0 = accAt1 V c (n - 1) (by omega)⌝ ∗ owns (c : Thread nD τ) scM1_0 fullShare xs0 ∗ oth1 (F := F) c ∗ (∃ r, prngReg c r)) := by
  cases n with
  | zero =>
    rw [PhiS1, PhiA1_eq]
    iintro ⟨⟨⟨%d, HS0⟩, Hoth⟩, Hg⟩
    iexists d; isplitr; · ipureintro; exact fun hz => absurd rfl hz
    isplitl [HS0]; · iexact HS0
    isplitl [Hoth]; · iexact Hoth
    iexact Hg
  | succ n =>
    rw [PhiS1]
    iintro ⟨⟨HS0, Hoth⟩, Hg⟩
    iexists accAt1 V c n h; isplitr; · ipureintro; exact fun _ => rfl
    isplitl [HS0]; · iexact HS0
    isplitl [Hoth]; · iexact Hoth
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
      ⊢ wp frame (wpE (defs₀ (F := F)) Variants.none c none) Set.univ (bodyAt1 t) (fun _ =>
        iprop((dat1 V c).Φ t.succ ∗ (dat1 V c).owesAt () t.succ ∗ (dat1 V c).leavesExact 0 t ∗ (dat1 V c).leavesExact 1 t
          ∗ (dat1 V c).leavesExact 2 t ∗ (dat1 V c).leavesExact 3 t)) := by
  unfold bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare (accAt1 V c t.val t.isLt) ∗ oth1 (F := F) c) ∗ (∃ r, prngReg c r)) from rfl,
    show (dat1 V c).Φ t.castSucc = PhiS1 V c t.val (Nat.le_of_lt t.isLt) from rfl,
    (dat1 V c).leavesExact_live 0 t (live1 0 t (.inl (by decide))), (dat1 V c).leavesExact_live 1 t (live1 1 t (.inl (by decide))),
    (dat1 V c).leavesExact_live 2 t (live1 2 t (.inl (by decide)))]
  have key : ∀ d3, ∃ O, O = (if cond1_1 (grid1.coords t) then k1_pay3 (accAt1 V c t.val t.isLt) (iblk1 V c 2 t) else (dat1 V c).before 3 t d3)
      ∧ (owns (c : Thread nD τ) (ms1_3 t) fullShare O ⊢ (dat1 V c).leavesExact 3 t) := fun d3 => by
    by_cases h1 : t.val % 16 = 15
    · exact ⟨(dat1 V c).after 3 t, (if_pos ((hcond1_1 t).mpr h1)).symm, by
        rw [(dat1 V c).leavesExact_live 3 t (live1 3 t (.inr h1))]⟩
    · exact ⟨_, (if_neg fun h => h1 ((hcond1_1 t).mp h)).symm, by
        rw [Dat.leavesExact_idle (dat1 V c) 3 t (idle1_3 t h1).1 (idle1_3 t h1).2]; iintro H; iexists _; iexact H⟩
  iintro ⟨HΦ, Ho, ⟨%d0, H0⟩, ⟨%d1, H1⟩, ⟨%d2, H2⟩, ⟨%d3, H3⟩⟩
  obtain ⟨O, hO, hL⟩ := key d3
  ihave HΦ := (PhiS1_open V c _ _) $$ HΦ
  icases HΦ with ⟨%xs0, %hxs, HS0, Hoth, Hg⟩
  iapply (run1 c (grid1.coords t) _ (hs1_0 t) _ (hs1_1 t) _ (hs1_2 t) _ (hs1_3 t) _ (Memref.isWhole_whole _) (iblk1 V c 0 t) (iblk1 V c 1 t) (iblk1 V c 2 t)
    _ O xs0 _ (accAt1_step V c t xs0 hxs) hO Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hoth Hg]
  · isplitl [HS0 Hoth]
    · isplitl [HS0]; · iexact HS0
      iexact Hoth
    iexact Hg
  isplitl [Ho]; · iexact Ho
  isplitl [H0]; · iexact H0
  isplitl [H1]; · iexact H1
  isplitl [H2]; · iexact H2
  iapply hL; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]
  refine (PhiS1_open V c cfg1.N le_rfl).trans ?_
  iintro ⟨%xs0, -, HS0, Hoth, Hg⟩
  isplitl [HS0 Hoth]
  · isplitl [HS0]; · iexists _; iexact HS0
    iexact Hoth
  iexact Hg

end Cert.Kernel.Gen

end
-- ==== Proof.K.R2Shared.lean ====
import proofs.«402315_j14740327760019_3_alg».proof.Proof.Gen.Kernel.Launch
import proofs.«402315_j14740327760019_3_alg».proof.Proof.Gen.Kernel.Skeleton
import proofs.«402315_j14740327760019_3_alg».proof.Proof.Gen.Kernel.Points
import proofs.«402315_j14740327760019_3_alg».proof.Proof.LibBody
import Idealize.ShloMosaic.Lib.Pipeline.Regions
import Idealize.ShloMosaic.Lib.Tactic

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem live2 : ∀ (w : Fin cfg2.W) (t : Fin cfg2.N), w ≠ 3 ∨ t.val % 4 = 3 → cfg2.idle w (grid2.coords t) = false := by decide +kernel
theorem idle2_3 : ∀ t : Fin cfg2.N, t.val % 4 ≠ 3 → cfg2.idle 3 (grid2.coords t) = true ∧ (cfg2.win 3).flush t = false := by decide +kernel

abbrev ms2_0 (t : Fin cfg2.N) : Memref sig .tc .vmem S256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .f32 := win2_3.stage (cfg2.slots t 3)
abbrev hs2_3 (t : Fin cfg2.N) : (ms2_3 t).IsWhole := hstage2_3 ((cfg2.slots t 3).cast nbuf2_3)
abbrev scM2_0 : Memref sig .tc .vmem S256x256 .f32 := Memref.whole cc2_scratch0

abbrev oth2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ oth2 (F := F) c) ∗ (∃ r, prngReg c r)) := by
  unfold Pipeline.ΦA; rw [Pipeline.scopedRest_split_of_list spec2 c [cc2_scratch0] (by decide) (by decide)]
  simp only [scM2_0, owns_whole]; rfl

end Cert.Kernel.Gen

end
-- ==== Proof.K.R2Run.lean ====
import proofs.«402315_j14740327760019_3_alg».proof.Proof.K.R2Shared

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (c : Dev nD) (i : grid2.Coords) (arg2 : Memref sig .tc .vmem S256x512 .bf16) (harg2 : arg2.IsWhole)
  (arg3 : Memref sig .tc .vmem S512x256 .bf16) (harg3 : arg3.IsWhole) (arg4 : Memref sig .tc .vmem S1x256 .f32) (harg4 : arg4.IsWhole)
  (arg5 : Memref sig .tc .vmem S256x256 .f32) (harg5 : arg5.IsWhole) (arg6 : Memref sig .tc .vmem S256x256 .f32) (harg6 : arg6.IsWhole)
  (x0 : Vec F S256x512 .bf16) (x1 : Vec F S512x256 .bf16) (x2 : Vec F S1x256 .f32)

/-- The body at a grid point: the accumulator, cleared first where the point opens a row of the grid, gains the block product; where the point closes the row the output block is the last payload of it and the bias row, elsewhere as found. -/
theorem run2 (xi3 O : Vec F S256x256 .f32) (xs0 A : Vec F S256x256 .f32)
    (hA : A = k2_pay2 (if cond2_0 i then k2_pay1 else xs0) x0 x1) (hO : O = if cond2_1 i then k2_pay3 A x2 else xi3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare O ∗ owns (c : Thread nD τ) arg6 fullShare A) -∗ K ⟨⟩))
      ⊢ wp frame (wpE (defs₀ (F := F)) Variants.none c none) E (cc2__mm_kernel i arg2 harg2 arg3 harg3 arg4 harg4 arg5 harg5 arg6 harg6) K := by
  subst hA hO
  by_cases hc0 : cond2_0 i <;> by_cases hc1 : cond2_1 i <;>
    (first | rw [if_pos hc0] | rw [if_neg hc0]) <;> (first | rw [if_pos hc1] | rw [if_neg hc1]) <;> (
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; first | (sl_unfold_words; rw [View.read_writes_unit_zero _ _ View.hz2]; simp only [View.readAt_eq_ld, hf0, hf1, hf2, hfs0, View.ld_unit_zero (S := S256x512) View.hz2, View.ld_unit_zero (S := S512x256) View.hz2, View.ld_unit_zero (S := S256x256) View.hz2, View.ld_unit_zero (S := S1x256) View.hz2, View.readCov_cons_unit_zero (S := S256x256) _ View.hz2]) | exact hf3
    iexists _; isplitr; swap; · iexact HS0
    ipureintro; sl_unfold_words; rw [View.read_writes_unit_zero _ _ View.hz2]; simp only [View.readAt_eq_ld, hf0, hf1, hf2, hfs0, View.ld_unit_zero (S := S256x512) View.hz2, View.ld_unit_zero (S := S512x256) View.hz2, View.ld_unit_zero (S := S256x256) View.hz2, View.ld_unit_zero (S := S1x256) View.hz2, View.readCov_cons_unit_zero (S := S256x256) _ View.hz2])

end Cert.Kernel.Gen

end
-- ==== Proof.K.R2Body.lean ====
import proofs.«402315_j14740327760019_3_alg».proof.Proof.K.R2Run

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the block product added to the cleared accumulator at the first step of a row of the grid, elsewhere to what the position before left. -/
def accAt2 (c : Dev nD) : (n : ℕ) → n < cfg2.N → Vec F S256x256 .f32
  | 0, hn => k2_pay2 k2_pay1 (iblk2 V c 0 ⟨0, hn⟩) (iblk2 V c 1 ⟨0, hn⟩)
  | n + 1, hn => k2_pay2 (if (n + 1) % 4 = 0 then k2_pay1 else accAt2 c n (Nat.lt_of_succ_lt hn)) (iblk2 V c 0 ⟨n + 1, hn⟩) (iblk2 V c 1 ⟨n + 1, hn⟩)

theorem accAt2_first (c : Dev nD) (t : Fin cfg2.N) (h0 : t.val % 4 = 0) :
    accAt2 V c t.val t.isLt = k2_pay2 k2_pay1 (iblk2 V c 0 t) (iblk2 V c 1 t) := by
  obtain ⟨n, hn⟩ := t
  cases n with
  | zero => rfl
  | succ n => unfold accAt2; rw [if_pos h0]

theorem accAt2_next (c : Dev nD) (t : Fin cfg2.N) (h0 : ¬t.val % 4 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => rw [accAt2, if_neg h0]; rfl

/-- The same step from any contents that are the position before's where there is one: the first point clears them. -/
theorem accAt2_step (c : Dev nD) (t : Fin cfg2.N) (xs0 : Vec F S256x256 .f32)
    (h : ∀ hz : t.val ≠ 0, xs0 = accAt2 V c (t.val - 1) (by omega)) :
    accAt2 V c t.val t.isLt = k2_pay2 (if cond2_0 (grid2.coords t) then k2_pay1 else xs0) (iblk2 V c 0 t) (iblk2 V c 1 t) := by
  by_cases h0 : t.val % 4 = 0
  · rw [if_pos ((hcond2_0 t).mpr h0), accAt2_first V c t h0]
  · rw [if_neg fun hc => h0 ((hcond2_0 t).mp hc), accAt2_next V c t h0, h fun e => h0 (by rw [e])]

/-- The output block and the accumulator after position `n`. -/
def outsAt2 (c : Dev nD) (n : ℕ) (hn : n < cfg2.N) : Vec F S256x256 .f32 × Vec F S256x256 .f32 :=
  (k2_pay3 (accAt2 V c n hn) (iblk2 V c 2 ⟨n, hn⟩), accAt2 V c n hn)

def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ oth2 (F := F) c) ∗ (∃ r, prngReg c r))

theorem PhiS2_open (c : Dev nD) (n : ℕ) (h : n ≤ cfg2.N) :
    PhiS2 V c n h ⊢ iprop(∃ xs0, ⌜∀ hz : n ≠ 0, xs0 = accAt2 V c (n - 1) (by omega)⌝ ∗ owns (c : Thread nD τ) scM2_0 fullShare xs0 ∗ oth2 (F := F) c ∗ (∃ r, prngReg c r)) := by
  cases n with
  | zero =>
    rw [PhiS2, PhiA2_eq]
    iintro ⟨⟨⟨%d, HS0⟩, Hoth⟩, Hg⟩
    iexists d; isplitr; · ipureintro; exact fun hz => absurd rfl hz
    isplitl [HS0]; · iexact HS0
    isplitl [Hoth]; · iexact Hoth
    iexact Hg
  | succ n =>
    rw [PhiS2]
    iintro ⟨⟨HS0, Hoth⟩, Hg⟩
    iexists accAt2 V c n h; isplitr; · ipureintro; exact fun _ => rfl
    isplitl [HS0]; · iexact HS0
    isplitl [Hoth]; · iexact Hoth
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
      ⊢ wp frame (wpE (defs₀ (F := F)) Variants.none c none) Set.univ (bodyAt2 t) (fun _ =>
        iprop((dat2 V c).Φ t.succ ∗ (dat2 V c).owesAt () t.succ ∗ (dat2 V c).leavesExact 0 t ∗ (dat2 V c).leavesExact 1 t
          ∗ (dat2 V c).leavesExact 2 t ∗ (dat2 V c).leavesExact 3 t)) := by
  unfold bodyAt2
  simp only [before2_0, before2_1, before2_2]
  rw [show (dat2 V c).owesAt () t.succ = (dat2 V c).owesAt () t.castSucc from rfl,
    show (dat2 V c).Φ t.succ = iprop(iprop(owns (c : Thread nD τ) scM2_0 fullShare (accAt2 V c t.val t.isLt) ∗ oth2 (F := F) c) ∗ (∃ r, prngReg c r)) from rfl,
    show (dat2 V c).Φ t.castSucc = PhiS2 V c t.val (Nat.le_of_lt t.isLt) from rfl,
    (dat2 V c).leavesExact_live 0 t (live2 0 t (.inl (by decide))), (dat2 V c).leavesExact_live 1 t (live2 1 t (.inl (by decide))),
    (dat2 V c).leavesExact_live 2 t (live2 2 t (.inl (by decide)))]
  have key : ∀ d3, ∃ O, O = (if cond2_1 (grid2.coords t) then k2_pay3 (accAt2 V c t.val t.isLt) (iblk2 V c 2 t) else (dat2 V c).before 3 t d3)
      ∧ (owns (c : Thread nD τ) (ms2_3 t) fullShare O ⊢ (dat2 V c).leavesExact 3 t) := fun d3 => by
    by_cases h1 : t.val % 4 = 3
    · exact ⟨(dat2 V c).after 3 t, (if_pos ((hcond2_1 t).mpr h1)).symm, by
        rw [(dat2 V c).leavesExact_live 3 t (live2 3 t (.inr h1))]⟩
    · exact ⟨_, (if_neg fun h => h1 ((hcond2_1 t).mp h)).symm, by
        rw [Dat.leavesExact_idle (dat2 V c) 3 t (idle2_3 t h1).1 (idle2_3 t h1).2]; iintro H; iexists _; iexact H⟩
  iintro ⟨HΦ, Ho, ⟨%d0, H0⟩, ⟨%d1, H1⟩, ⟨%d2, H2⟩, ⟨%d3, H3⟩⟩
  obtain ⟨O, hO, hL⟩ := key d3
  ihave HΦ := (PhiS2_open V c _ _) $$ HΦ
  icases HΦ with ⟨%xs0, %hxs, HS0, Hoth, Hg⟩
  iapply (run2 c (grid2.coords t) _ (hs2_0 t) _ (hs2_1 t) _ (hs2_2 t) _ (hs2_3 t) _ (Memref.isWhole_whole _) (iblk2 V c 0 t) (iblk2 V c 1 t) (iblk2 V c 2 t)
    _ O xs0 _ (accAt2_step V c t xs0 hxs) hO Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hoth Hg]
  · isplitl [HS0 Hoth]
    · isplitl [HS0]; · iexact HS0
      iexact Hoth
    iexact Hg
  isplitl [Ho]; · iexact Ho
  isplitl [H0]; · iexact H0
  isplitl [H1]; · iexact H1
  isplitl [H2]; · iexact H2
  iapply hL; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]
  refine (PhiS2_open V c cfg2.N le_rfl).trans ?_
  iintro ⟨%xs0, -, HS0, Hoth, Hg⟩
  isplitl [HS0 Hoth]
  · isplitl [HS0]; · iexists _; iexact HS0
    iexact Hoth
  iexact Hg

end Cert.Kernel.Gen

end
-- ==== Proof.K.Segs.lean ====
import proofs.«402315_j14740327760019_3_alg».proof.Proof.Gen.Kernel.Regions
import proofs.«402315_j14740327760019_3_alg».proof.Proof.K.R0Body
import proofs.«402315_j14740327760019_3_alg».proof.Proof.K.R1Body
import proofs.«402315_j14740327760019_3_alg».proof.Proof.K.R2Body
import Idealize.ShloMosaic.Lib.Pipeline.FrameSuffix
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat RegionSeg)

variable {F : FTy → Type} [FloatOps F]

local notation "𝕄" => MT nD τ sig Unit (Elt F) ℕ (UR sig nD τ) ℕ

section Left

variable {cfg : Pipeline.Cfg sig Λ₀} {c : Dev nD} (V : Valuation τ sig (Elt F)) (d : Dat τ (Elt F) Unit ℕ (UR sig nD τ) ℕ cfg c)
  (hinj : Function.Injective (Pipeline.arrRef cfg.spec))

/-- The buffer contents after a region entered at `V`: its arrays at their final values, everything else unchanged. -/
abbrev left : Valuation τ sig (Elt F) := Pipeline.withArrays cfg.spec c V fun w => d.arrAt w cfg.N

include hinj in
theorem left_arr (w : Fin cfg.W) : left V d (Pipeline.arrRef cfg.spec w) = d.arrAt w cfg.N :=
  Pipeline.withArrays_arr _ hinj c _ _ w

include hinj in
/-- An input array is never written, so a region whose windows are inputs or its one result buffer `o` changes `o` alone. -/
theorem update_left (o : Ref sig .tc) (ho : ∀ w, (cfg.win w).isOut = false ∨ Pipeline.arrRef cfg.spec w = o)
    (hA : ∀ w, d.A w = V (Pipeline.arrRef cfg.spec w)) : Function.update V o (left V d o) = left V d :=
  Function.update_eq_iff.mpr ⟨rfl, fun b hb => by
    by_cases h : ∃ w, Proc.devRef .tc (Pipeline.arrRef cfg.spec w) = b
    · obtain ⟨w, rfl⟩ := h
      rcases ho w with hin | hw
      · exact ((d.arrAt_in w hin _).trans (hA w)).symm.trans (left_arr V d hinj w).symm
      · exact absurd (congrArg (Proc.devRef .tc) hw) hb
    · exact (show left V d b = V b from dif_neg h).symm⟩

end Left

variable (m : (ℓ : Loc nD τ sig) → Buf (Elt F) ℓ)

abbrev En0 : (c : Dev nD) → (b : Ref sig .tc) → Buf (Elt F) ((c : Thread nD τ).loc b) := fun c b => V9 m c b
def W10 (c : Dev nD) : Valuation τ sig (Elt F) := left (V9 m c) (dat0 (En0 m) c)

/-- Region 1 is entered at the contents before item 17 with region 0's result in place; -/
abbrev X17 (c : Dev nD) : Valuation τ sig (Elt F) := V17 m (fun _ r c => W10 m c r) c
abbrev En1 : (c : Dev nD) → (b : Ref sig .tc) → Buf (Elt F) ((c : Thread nD τ).loc b) := fun c b => X17 m c b
def W18 (c : Dev nD) : Valuation τ sig (Elt F) := left (X17 m c) (dat1 (En1 m) c)

/-- region 2 at those before item 25 with the results of regions 0 and 1 in place. -/
abbrev X25 (c : Dev nD) : Valuation τ sig (Elt F) := V25 m (fun n r c => if n ≤ 10 then W10 m c r else W18 m c r) c
abbrev En2 : (c : Dev nD) → (b : Ref sig .tc) → Buf (Elt F) ((c : Thread nD τ).loc b) := fun c b => X25 m c b
def W26 (c : Dev nD) : Valuation τ sig (Elt F) := left (X25 m c) (dat2 (En2 m) c)

/-- What the regions leave, as the unknowns of the valuations between items. -/
def outsF : Outs (F := F) := fun n r c => if n ≤ 10 then W10 m c r else if n ≤ 18 then W18 m c r else W26 m c r

theorem V17_outsF (c : Dev nD) : V17 m (outsF m) c = X17 m c := rfl
theorem V25_outsF (c : Dev nD) : V25 m (outsF m) c = X25 m c := rfl

theorem outsF_main_v22 (c : Dev nD) : outsF m 10 main_v22 c = (dat0 (En0 m) c).arrAt 3 cfg0.N :=
  left_arr (V9 m c) _ launch0.win.arr_inj 3
theorem outsF_main_v43 (c : Dev nD) : outsF m 18 main_v43 c = (dat1 (En1 m) c).arrAt 3 cfg1.N :=
  left_arr (X17 m c) _ launch1.win.arr_inj 3
theorem outsF_main_v64 (c : Dev nD) : outsF m 26 main_v64 c = (dat2 (En2 m) c).arrAt 3 cfg2.N :=
  left_arr (X25 m c) _ launch2.win.arr_inj 3

def pdats : (p : Fin 3) → (c : Dev nD) → Dat τ (Elt F) Unit ℕ (UR sig nD τ) ℕ (cfgs p) c
  | ⟨0, _⟩ => dat0 (En0 m)
  | ⟨1, _⟩ => dat1 (En1 m)
  | ⟨2, _⟩ => dat2 (En2 m)

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Region

variable (pd : (p : Fin 3) → (c : Dev nD) → Dat τ (Elt F) Unit ℕ (UR sig nD τ) ℕ (cfgs p) c)

def regOf (p : Fin 3) (lf : Pipeline.LaunchFacts (nD := nD) (τ := τ) cfgs p) (V : Dev nD → Valuation τ sig (Elt F)) (o : Ref sig .tc)
    (ho : ∀ w, ((cfgs p).win w).isOut = false ∨ Pipeline.arrRef (cfgs p).spec w = o)
    (hq : ∀ c w, (pd p c).q w = fullShare) (howed : ∀ c t, (pd p c).owed t = 0) (hrec : ∀ c x, x ∈ (pd p c).recorded 0)
    (hA : ∀ c w, (pd p c).A w = V c (Pipeline.arrRef (cfgs p).spec w))
    (hbody : ∀ c, Pipeline.BodyObligation (pd p c) defs₀ Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    RegionSeg pcfgs adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (Function.update (V c) o (left (V c) (pd p c) o)) ∗ R c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) pcfgs adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    rw [update_left (V c) (pd p c) lf.win.arr_inj o ho (hA c)]
    have hjoin := Pipeline.unscopedBufs_of_arrays (p := p) pcfgs adm lf.win lf.arr_whole c pd ((pd p c).share_full (hq c))
      (fun b => V c b) (fun b => left (V c) (pd p c) b) ((pd p c).arrAt · (cfgs p).N) (fun w => (left_arr (V c) (pd p c) lf.win.arr_inj w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Region

def reg0 : RegionSeg pcfgs adm (pdats m) () defs₀ Variants.none L lv 0 :=
  regOf (pdats m) 0 launch0 (V9 m) main_v22 (by decide) (fun _ _ => rfl) (fun _ _ => rfl) (fun _ _ => trivial) (A_eq0 (En0 m)) (body_obligation0 (En0 m))
    (hin0 (En0 m)) (hout0 (En0 m))
def reg1 : RegionSeg pcfgs adm (pdats m) () defs₀ Variants.none L lv 1 :=
  regOf (pdats m) 1 launch1 (X17 m) main_v43 (by decide) (fun _ _ => rfl) (fun _ _ => rfl) (fun _ _ => trivial) (A_eq1 (En1 m)) (body_obligation1 (En1 m))
    (hin1 (En1 m)) (hout1 (En1 m))
def reg2 : RegionSeg pcfgs adm (pdats m) () defs₀ Variants.none L lv 2 :=
  regOf (pdats m) 2 launch2 (X25 m) main_v64 (by decide) (fun _ _ => rfl) (fun _ _ => rfl) (fun _ _ => trivial) (A_eq2 (En2 m)) (body_obligation2 (En2 m))
    (hin2 (En2 m)) (hout2 (En2 m))

end Cert.Kernel.Gen

end
-- ==== Proof.K.RunAll.lean ====
import proofs.«402315_j14740327760019_3_alg».proof.Proof.K.Segs

noncomputable section

namespace Cert.Kernel.Gen

open Idealize.ShloMosaic Idealize.ShloMosaic.TcCoe
open Idealize.SL Idealize.SL.BI
open scoped Idealize.SL.BI
open Idealize.SL.BI.BIBase Idealize.SL.BI.Laws Idealize.SL.ProofMode
open Idealize.ShloMosaic.Rounds
open Idealize.ShloMosaic.Pipeline (Seg)

variable {F : FTy → Type} [FloatOps F]

local notation "𝕄" => MT nD τ sig Unit (Elt F) ℕ (UR sig nD τ) ℕ

variable (m : (ℓ : Loc nD τ sig) → Buf (Elt F) ℓ)

/-- The run ends with the result buffer at the last contents and every argument as launched. -/
theorem run_value (ρ : Dev nD → PrngReg) : θ_run defs (onTc (τ := τ) (main (F := F))) ⟨m, fun _ => 0, ρ⟩ (fun r => ∀ c : Dev nD,
      r.2.mem ((c.tc : Thread nD τ).loc main_v65) = V27 m (outsF m) c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev pcfgs adm (pdats m) () cellOf_inj emb₁ defs₀ Variants.none L lv m ρ main
    (segs m (outsF m) Variants.none L lv (fun _ => R) () (pdats m) (reg0 m) (reg1 m) (reg2 m))
    (fun c Q' => by rw [main_chain c, Seg.run_eq_chain]; exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V27 m (outsF m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl sep_elim_right⟩)
    (hinit := Pipeline.initEach L lv fun c => ?_)
    (QY := fun c s => ∀ b ∈ Pipeline.ucRefs τ sig, s.mem (((c : Thread nD τ)).1, b) = V27 m (outsF m) c b)
    (hfin := fun c s' => ?_)
    (hQ := fun s h c => ⟨h c _ (mem_uc main_v65 (by decide)),
      (h c _ (mem_uc main_arg0 (by decide))).trans (V27_main_arg0 m (outsF m) c),
      (h c _ (mem_uc main_arg1 (by decide))).trans (V27_main_arg1 m (outsF m) c),
      (h c _ (mem_uc main_arg2 (by decide))).trans (V27_main_arg2 m (outsF m) c),
      (h c _ (mem_uc main_arg3 (by decide))).trans (V27_main_arg3 m (outsF m) c),
      (h c _ (mem_uc main_arg4 (by decide))).trans (V27_main_arg4 m (outsF m) c),
      (h c _ (mem_uc main_arg5 (by decide))).trans (V27_main_arg5 m (outsF m) c),
      (h c _ (mem_uc main_arg6 (by decide))).trans (V27_main_arg6 m (outsF m) c),
      (h c _ (mem_uc main_arg7 (by decide))).trans (V27_main_arg7 m (outsF m) c),
      (h c _ (mem_uc main_arg8 (by decide))).trans (V27_main_arg8 m (outsF m) c),
      (h c _ (mem_uc main_arg9 (by decide))).trans (V27_main_arg9 m (outsF m) c),
      (h c _ (mem_uc main_arg10 (by decide))).trans (V27_main_arg10 m (outsF m) c),
      (h c _ (mem_uc main_arg11 (by decide))).trans (V27_main_arg11 m (outsF m) c),
      (h c _ (mem_uc main_arg12 (by decide))).trans (V27_main_arg12 m (outsF m) c)⟩)
  · rw [← Pipeline.unscopedBufs_held]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V27 m (outsF m) c) s')
    isplitl [Hh] <;> iassumption

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => (h c).2) (run_value m ρ)

end Cert.Kernel.Gen

end
-- ==== Proof.RefImports.lean ====
import proofs.«402315_j14740327760019_3_alg».proof.Proof.Gen.ReferenceIdeal.Run
import proofs.«402315_j14740327760019_3_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx

/-- Every word of the index array, read signed, lies in `[0, n)`. -/
def InRange {E : ℕ} (w : (⟨1, ![E]⟩ : Shape).Idx → BitVec 32) (n : ℕ) : Prop :=
  ∀ e : Fin E, 0 ≤ (w (ix1 e)).toInt ∧ (w (ix1 e)).toInt < (n : Int)

def dec {E n : ℕ} {w : (⟨1, ![E]⟩ : Shape).Idx → BitVec 32} (h : InRange w n) (e : Fin E) : Fin n :=
  ⟨(w (ix1 e)).toInt.toNat, by
    have := h e
    omega⟩

theorem dec_val {E n : ℕ} {w : (⟨1, ![E]⟩ : Shape).Idx → BitVec 32} (h : InRange w n) (e : Fin E) :
    ((dec h e).val : Int) = (w (ix1 e)).toInt :=
  Int.toNat_of_nonneg (h e).1

abbrev arr2 {a b : ℕ} {α : Type} (x : (⟨2, ![a, b]⟩ : Shape).Idx → α) : Fin a → Fin b → α := fun p q => x (ix2 p q)
abbrev arr1 {a : ℕ} {α : Type} (x : (⟨1, ![a]⟩ : Shape).Idx → α) : Fin a → α := fun p => x (ix1 p)

/-- One sparse layer: `y[p, r] = Σ_{e : ri e = r} x[p, ci e] · v e + b r`. -/
def sparse {B nIn nOut E : ℕ} (x : Fin B → Fin nIn → EReal) (ri : Fin E → Fin nOut) (ci : Fin E → Fin nIn)
    (v : Fin E → EReal) (b : Fin nOut → EReal) : Fin B → Fin nOut → EReal :=
  fun p r => (∑ e : Fin E, if ri e = r then x p (ci e) * v e else 0) + b r

def relu {B n : ℕ} (y : Fin B → Fin n → EReal) : Fin B → Fin n → EReal := fun p r => max (y p r) 0

/-- The layer's dense weight table, transposed: `W[c, r] = Σ_{e : ci e = c ∧ ri e = r} v e`. -/
def dense {nIn nOut E : ℕ} (ri : Fin E → Fin nOut) (ci : Fin E → Fin nIn) (v : Fin E → EReal) : Fin nIn → Fin nOut → EReal :=
  fun c r => ∑ e : Fin E, if ci e = c ∧ ri e = r then v e else 0

/-- Three layers, the rectifier after the first two. -/
def net {B n0 n1 n2 n3 E0 E1 E2 : ℕ} (x : Fin B → Fin n0 → EReal)
    (r0 : Fin E0 → Fin n1) (c0 : Fin E0 → Fin n0) (v0 : Fin E0 → EReal) (b0 : Fin n1 → EReal)
    (r1 : Fin E1 → Fin n2) (c1 : Fin E1 → Fin n1) (v1 : Fin E1 → EReal) (b1 : Fin n2 → EReal)
    (r2 : Fin E2 → Fin n3) (c2 : Fin E2 → Fin n2) (v2 : Fin E2 → EReal) (b2 : Fin n3 → EReal) : Fin B → Fin n3 → EReal :=
  sparse (relu (sparse (relu (sparse x r0 c0 v0 b0)) r1 c1 v1 b1)) r2 c2 v2 b2

end Cert.Spec

end
-- ==== Proof.LibScatterAddRows.lean ====
import Idealize.ShloMosaic.PureOps.Ideal
import Idealize.ShloMosaic.PureOps.Dims
import Idealize.ShloMosaic.Lib.ValueIdx

noncomputable section

namespace Idealize.ShloMosaic

open ValueIdx

/-- An update lands on `i` exactly when, on every axis, the window's start plus its coordinate is `i`'s coordinate. -/
theorem ScatterDims.resultIdx?_eq_some_iff {s si u : Shape} (d : ScatterDims s si u) {w : Nat} (j : u.Idx)
    (idx : IVec si w) (i : s.Idx) :
    d.resultIdx? j idx = some i ↔ ∀ a, d.start j idx a + d.window j a = ((i a).val : Int) := by
  unfold ScatterDims.resultIdx?
  by_cases h : ∀ a, 0 ≤ d.start j idx a + d.window j a ∧ d.start j idx a + d.window j a < s.size a
  · rw [dif_pos h, Option.some.injEq, funext_iff]
    refine forall_congr' fun a => ?_
    have := h a
    rw [Fin.ext_iff]
    show (d.start j idx a + d.window j a).toNat = (i a).val ↔ _
    omega
  · rw [dif_neg h]
    refine ⟨(nomatch ·), fun e => absurd (fun a => ?_) h⟩
    have := (i a).isLt
    have := e a
    omega

abbrev ScatterDims.rows {R P C : Nat}
    (wf : ScatterDims.WF (⟨2, ![R, C]⟩ : Shape) ⟨2, ![P, 1]⟩ ⟨2, ![P, C]⟩ [1] [0] [0] 1) :
    ScatterDims (⟨2, ![R, C]⟩ : Shape) ⟨2, ![P, 1]⟩ ⟨2, ![P, C]⟩ :=
  ⟨[1], [0], [0], 1, wf⟩

section RowsAxes
variable {R P C w : Nat}
    (wf : ScatterDims.WF (⟨2, ![R, C]⟩ : Shape) ⟨2, ![P, 1]⟩ ⟨2, ![P, C]⟩ [1] [0] [0] 1)
    (idx : IVec (⟨2, ![P, 1]⟩ : Shape) w) (p : Fin P) (c' : Fin C)

theorem ScatterDims.rows_sKept : (ScatterDims.rows wf).sKept = [1] := by
  show (List.finRange 2).filter (fun a => a ∉ [(0 : Fin 2)]) = [(1 : Fin 2)]
  decide

theorem ScatterDims.rows_start1 : (ScatterDims.rows wf).start (ix2 p c') idx 1 = 0 := by
  unfold ScatterDims.start
  rw [dif_neg (show (1 : Fin 2) ∉ [(0 : Fin 2)] by decide)]

theorem ScatterDims.rows_window0 : (ScatterDims.rows wf).window (ix2 p c') 0 = 0 := by
  unfold ScatterDims.window
  rw [dif_neg (by rw [ScatterDims.rows_sKept]; show (0 : Fin 2) ∉ [(1 : Fin 2)]; decide)]

theorem ScatterDims.rows_window1 : (ScatterDims.rows wf).window (ix2 p c') 1 = c'.val := by
  unfold ScatterDims.window
  rw [dif_pos (by rw [ScatterDims.rows_sKept]; show (1 : Fin 2) ∈ [(1 : Fin 2)]; decide)]
  rfl

theorem ScatterDims.rows_siIdx (c : Fin (ScatterDims.rows wf).scatterDimsToOperandDims.length) :
    (ScatterDims.rows wf).siIdx (ix2 p c') c = ix2 p (0 : Fin 1) := by
  funext b
  match b with
  | ⟨0, _⟩ => rfl
  | ⟨1, _⟩ => exact @Subsingleton.elim (Fin 1) _ _ _

theorem ScatterDims.rows_start0 :
    (ScatterDims.rows wf).start (ix2 p c') idx 0 = (idx (ix2 p (0 : Fin 1))).toInt := by
  unfold ScatterDims.start
  rw [dif_pos (show (0 : Fin 2) ∈ [(0 : Fin 2)] by decide), ScatterDims.rows_siIdx]

end RowsAxes

theorem ScatterDims.rows_resultIdx?_eq_some_iff {R P C w : Nat}
    (wf : ScatterDims.WF (⟨2, ![R, C]⟩ : Shape) ⟨2, ![P, 1]⟩ ⟨2, ![P, C]⟩ [1] [0] [0] 1)
    (idx : IVec (⟨2, ![P, 1]⟩ : Shape) w) (p : Fin P) (c' : Fin C) (r : Fin R) (c : Fin C) :
    (ScatterDims.rows wf).resultIdx? (ix2 p c') idx = some (ix2 r c)
      ↔ (idx (ix2 p (0 : Fin 1))).toInt = (r.val : Int) ∧ c' = c := by
  refine (ScatterDims.resultIdx?_eq_some_iff _ _ _ _).trans (Fin.forall_fin_two.trans ?_)
  rw [ScatterDims.rows_start0, ScatterDims.rows_window0, ScatterDims.rows_start1, ScatterDims.rows_window1, Fin.ext_iff]
  show _ + ((0 : Nat) : Int) = (r.val : Int) ∧ (0 : Int) + (c'.val : Int) = (c.val : Int) ↔ _
  omega

/-- Entry (r, c) gains column c of every update row whose index, read signed, is r. -/
theorem Ideal.hostScatterAdd_rows_apply {R P C w : Nat}
    (wf : ScatterDims.WF (⟨2, ![R, C]⟩ : Shape) ⟨2, ![P, 1]⟩ ⟨2, ![P, C]⟩ [1] [0] [0] 1)
    (x : (⟨2, ![R, C]⟩ : Shape).Idx → EReal) (idx : IVec (⟨2, ![P, 1]⟩ : Shape) w)
    (upd : (⟨2, ![P, C]⟩ : Shape).Idx → EReal) (r : Fin R) (c : Fin C) :
    Ideal.hostScatterAdd (ScatterDims.rows wf) x idx upd (ix2 r c)
      = x (ix2 r c) + ∑ p : Fin P, if (idx (ix2 p (0 : Fin 1))).toInt = (r.val : Int) then upd (ix2 p c) else 0 := by
  unfold Ideal.hostScatterAdd
  congr 1
  rw [Finset.sum_filter, ValueIdx.sum_idx2]
  refine Finset.sum_congr rfl fun p _ => ?_
  simp only [ScatterDims.rows_resultIdx?_eq_some_iff]
  by_cases ht : (idx (ix2 p (0 : Fin 1))).toInt = (r.val : Int)
  · simp only [ht, true_and, if_true]
    rw [Finset.sum_ite_eq']
    simp
  · simp [ht]

end Idealize.ShloMosaic

end
-- ==== Proof.RefValue.lean ====
import proofs.«402315_j14740327760019_3_alg».proof.Proof.RefImports
import proofs.«402315_j14740327760019_3_alg».proof.Proof.Spec
import proofs.«402315_j14740327760019_3_alg».proof.Proof.LibScatterAddRows
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Spec

abbrev colsDims {B N E : Nat}
    (wf : GatherDims.WF (⟨2, ![B, N]⟩ : Shape) ⟨2, ![E, 1]⟩ ⟨2, ![B, E]⟩ [0] [1] [] [1] [] 1 ![B, 1]) :
    GatherDims (⟨2, ![B, N]⟩ : Shape) ⟨2, ![E, 1]⟩ ⟨2, ![B, E]⟩ :=
  ⟨[0], [1], [], [], [1], 1, ![B, 1], wf⟩

section Cols
variable {B N E w : Nat}
    (wf : GatherDims.WF (⟨2, ![B, N]⟩ : Shape) ⟨2, ![E, 1]⟩ ⟨2, ![B, E]⟩ [0] [1] [] [1] [] 1 ![B, 1])
    (idx : IVec (⟨2, ![E, 1]⟩ : Shape) w) (p : Fin B) (e : Fin E)

theorem colsDims_sKept : (colsDims wf).sKept = [0] := by
  show (List.finRange 2).filter (fun a => a ∉ ([(1 : Fin 2)] ++ [])) = [(0 : Fin 2)]
  decide

theorem colsDims_siIdx (c : Fin (colsDims wf).startIndexMap.length) :
    (colsDims wf).siIdx (ix2 p e) c = ix2 e (0 : Fin 1) := by
  funext b
  match b with
  | ⟨0, _⟩ => rfl
  | ⟨1, _⟩ => exact @Subsingleton.elim (Fin 1) _ _ _

/-- A gather of whole columns reads, at (p, e), row p of the column that the in-range start index of e names. -/
theorem gather_cols_apply {α : Type} (x : (⟨2, ![B, N]⟩ : Shape).Idx → α) (c : Fin N)
    (hc : (idx (ix2 e (0 : Fin 1))).toInt = (c.val : Int)) :
    Host.gather (colsDims wf) x idx (ix2 p e) = x (ix2 p c) := by
  unfold Host.gather
  congr 1
  funext a
  refine Fin.ext ?_
  match a with
  | ⟨0, _⟩ =>
    show (colsDims wf).start (ix2 p e) idx 0 + (colsDims wf).batchCoord (ix2 p e) 0 + (colsDims wf).offCoord (ix2 p e) 0 = p.val
    rw [GatherDims.batchCoord_eq_zero _ _ _ List.not_mem_nil]
    unfold GatherDims.start
    rw [dif_neg (show (0 : Fin 2) ∉ [(1 : Fin 2)] by decide)]
    unfold GatherDims.offCoord
    rw [dif_pos (by rw [colsDims_sKept]; show (0 : Fin 2) ∈ [(0 : Fin 2)]; decide)]
    exact Nat.zero_add _
  | ⟨1, _⟩ =>
    show (colsDims wf).start (ix2 p e) idx 1 + (colsDims wf).batchCoord (ix2 p e) 1 + (colsDims wf).offCoord (ix2 p e) 1 = c.val
    rw [GatherDims.batchCoord_eq_zero _ _ _ List.not_mem_nil,
      GatherDims.offCoord_eq_zero _ _ _ (by rw [colsDims_sKept]; show (1 : Fin 2) ∉ [(0 : Fin 2)]; decide)]
    unfold GatherDims.start
    rw [dif_pos (show (1 : Fin 2) ∈ [(1 : Fin 2)] by decide), colsDims_siIdx, hc]
    have := c.isLt
    show min ((c.val : Int)).toNat (N - 1) + 0 + 0 = c.val
    omega

end Cols

/-- The wrap of negative indices leaves a non-negative word alone. -/
theorem select_wrap_of_nonneg (a b : BitVec 32) (h : 0 ≤ a.toInt) :
    Scalar.select (IntOp.cmpi .slt a 0#32) b a = a := by
  have hlt : a.slt 0#32 = false := by
    simp only [BitVec.slt, BitVec.toInt_zero, decide_eq_false_iff_not, Int.not_lt]
    exact h
  show (if BitVec.ofBool (a.slt 0#32) = 1 then b else a) = a
  rw [hlt]
  rfl

/-- Gather column `cols e`, scale by `vals e`, add into row `rows e` of a zero table, add the bias: with indices in range, the sparse layer. -/
theorem layer_apply {B nIn nOut E : Nat}
    (wfG : GatherDims.WF (⟨2, ![B, nIn]⟩ : Shape) ⟨2, ![E, 1]⟩ ⟨2, ![B, E]⟩ [0] [1] [] [1] [] 1 ![B, 1])
    (wfS : ScatterDims.WF (⟨2, ![nOut, B]⟩ : Shape) ⟨2, ![E, 1]⟩ ⟨2, ![E, B]⟩ [1] [0] [0] 1)
    (x : (⟨2, ![B, nIn]⟩ : Shape).Idx → EReal)
    (rows cols : (⟨1, ![E]⟩ : Shape).Idx → BitVec 32) (hr : InRange rows nOut) (hc : InRange cols nIn)
    (vals : (⟨1, ![E]⟩ : Shape).Idx → EReal) (bias : (⟨1, ![nOut]⟩ : Shape).Idx → EReal)
    (gi si : IVec (⟨2, ![E, 1]⟩ : Shape) 32)
    (hgi : ∀ i, gi i = cols (ix1 (i 0))) (hsi : ∀ i, si i = rows (ix1 (i 0)))
    (u : (⟨2, ![E, B]⟩ : Shape).Idx → EReal)
    (hu : ∀ i, u i = Host.gather (colsDims wfG) x gi (ix2 (i 1) (i 0)) * vals (ix1 (i 0)))
    (z : (⟨2, ![nOut, B]⟩ : Shape).Idx → EReal) (hz : ∀ j, z j = 0)
    (j : (⟨2, ![nOut, B]⟩ : Shape).Idx) (k : (⟨1, ![nOut]⟩ : Shape).Idx) (hk : k 0 = j 0) :
    Host.scatterAdd (F := Ideal) (φ := .f32) (ScatterDims.rows wfS) z si u j + bias k
      = sparse (arr2 x) (dec hr) (dec hc) (arr1 vals) (arr1 bias) (j 1) (j 0) := by
  obtain ⟨r, p, rfl⟩ : ∃ (r : Fin nOut) (p : Fin B), j = ix2 r p := ⟨j 0, j 1, eq_ix2 j⟩
  obtain rfl : k = ix1 r := (eq_ix1 k).trans (congrArg ix1 hk)
  show Ideal.hostScatterAdd (ScatterDims.rows wfS) z si u (ix2 r p) + bias (ix1 r)
    = sparse (arr2 x) (dec hr) (dec hc) (arr1 vals) (arr1 bias) p r
  rw [Ideal.hostScatterAdd_rows_apply, hz, zero_add]
  refine congrArg (· + _) (Finset.sum_congr rfl fun e _ => ?_)
  have hu' : u (ix2 e p) = x (ix2 p (dec hc e)) * vals (ix1 e) :=
    (hu _).trans (congrArg (· * _) (gather_cols_apply wfG gi p e x (dec hc e)
      ((congrArg BitVec.toInt (hgi _)).trans (dec_val hc e).symm)))
  rw [show si (ix2 e (0 : Fin 1)) = rows (ix1 e) from hsi _, hu']
  exact if_congr (by rw [← dec_val hr e, Int.natCast_inj, Fin.val_inj]) rfl rfl

section Net
variable (x : (⟨2, ![256, 20000]⟩ : Shape).Idx → EReal)
    (rows0 cols0 : (⟨1, ![256000]⟩ : Shape).Idx → BitVec 32) (vals0 : (⟨1, ![256000]⟩ : Shape).Idx → EReal)
    (bias0 : (⟨1, ![8000]⟩ : Shape).Idx → EReal)
    (rows1 cols1 : (⟨1, ![64000]⟩ : Shape).Idx → BitVec 32) (vals1 : (⟨1, ![64000]⟩ : Shape).Idx → EReal)
    (bias1 : (⟨1, ![2000]⟩ : Shape).Idx → EReal)
    (rows2 cols2 : (⟨1, ![16000]⟩ : Shape).Idx → BitVec 32) (vals2 : (⟨1, ![16000]⟩ : Shape).Idx → EReal)
    (bias2 : (⟨1, ![500]⟩ : Shape).Idx → EReal)
    (hr0 : InRange rows0 8000) (hc0 : InRange cols0 20000) (hr1 : InRange rows1 2000) (hc1 : InRange cols1 8000)
    (hr2 : InRange rows2 500) (hc2 : InRange cols2 2000)

theorem layer0_eq : arr2 (Read.val_main_v17 (F := Ideal) x rows0 cols0 vals0 bias0)
    = sparse (arr2 x) (dec hr0) (dec hc0) (arr1 vals0) (arr1 bias0) := by
  funext p r
  show Read.val_main_v17 (F := Ideal) x rows0 cols0 vals0 bias0 (ix2 p r) = _
  rw [Read.val_main_v17_apply, Read.val_main_v14_apply, Read.val_main_v16_apply, Read.val_main_v15_apply]
  refine layer_apply gather_S256x20000_S256000x1_S256x256000_0_1_n_n_1_1_2561_wf scatter_S8000x256_S256000x1_S256000x256_1_0_0_1_wf _ rows0 cols0 hr0 hc0 vals0 bias0
    (Read.val_main_v5 (F := Ideal) cols0) (Read.val_main_v12 (F := Ideal) rows0) (fun i => ?_) (fun i => ?_)
    (Read.val_main_v10 (F := Ideal) x cols0 vals0) (fun i => ?_) (Read.val_main_v11 (F := Ideal)) (fun j => ?_) _ _ rfl
  · rw [Read.val_main_v5_apply, Read.val_main_v4_apply, Read.val_main_v1_apply, Read.val_main_v0_apply, Read.val_main_c_apply, eq_ix1 (Read.idx_main_v5 i)]
    exact select_wrap_of_nonneg _ _ (hc0 _).1
  · rw [Read.val_main_v12_apply, eq_ix1 (Read.idx_main_v12 i)]
    rfl
  · rw [Read.val_main_v10_apply, Read.val_main_v9_apply, Read.val_main_v8_apply, Read.val_main_v7_apply, eq_ix1 (Read.idx_main_v7 _), eq_ix2 (Read.idx_main_v10 i)]
    rfl
  · rw [Read.val_main_v11_apply, Read.val_main_cst_apply]
    exact Ideal.ofBits_zero_f32

theorem relu0_eq : arr2 (Read.val_main_v18 (F := Ideal) x rows0 cols0 vals0 bias0)
    = relu (arr2 (Read.val_main_v17 (F := Ideal) x rows0 cols0 vals0 bias0)) := by
  funext p q
  show Read.val_main_v18 (F := Ideal) x rows0 cols0 vals0 bias0 (ix2 p q) = max _ 0
  rw [Read.val_main_v18_apply, Read.val_main_call0_v0_apply, Read.val_main_call0_cst_apply]
  exact congrArg (max _) Ideal.ofBits_zero_f32

theorem layer1_eq : arr2 (Read.val_main_v36 (F := Ideal) x rows0 cols0 vals0 bias0 rows1 cols1 vals1 bias1)
    = sparse (arr2 (Read.val_main_v18 (F := Ideal) x rows0 cols0 vals0 bias0)) (dec hr1) (dec hc1) (arr1 vals1) (arr1 bias1) := by
  funext p r
  show Read.val_main_v36 (F := Ideal) x rows0 cols0 vals0 bias0 rows1 cols1 vals1 bias1 (ix2 p r) = _
  rw [Read.val_main_v36_apply, Read.val_main_v33_apply, Read.val_main_v35_apply, Read.val_main_v34_apply]
  refine layer_apply gather_S256x8000_S64000x1_S256x64000_0_1_n_n_1_1_2561_wf scatter_S2000x256_S64000x1_S64000x256_1_0_0_1_wf _ rows1 cols1 hr1 hc1 vals1 bias1
    (Read.val_main_v24 (F := Ideal) cols1) (Read.val_main_v31 (F := Ideal) rows1) (fun i => ?_) (fun i => ?_)
    (Read.val_main_v29 (F := Ideal) x rows0 cols0 vals0 bias0 cols1 vals1) (fun i => ?_) (Read.val_main_v30 (F := Ideal)) (fun j => ?_) _ _ rfl
  · rw [Read.val_main_v24_apply, Read.val_main_v23_apply, Read.val_main_v20_apply, Read.val_main_v19_apply, Read.val_main_c_1_apply, eq_ix1 (Read.idx_main_v24 i)]
    exact select_wrap_of_nonneg _ _ (hc1 _).1
  · rw [Read.val_main_v31_apply, eq_ix1 (Read.idx_main_v31 i)]
    rfl
  · rw [Read.val_main_v29_apply, Read.val_main_v28_apply, Read.val_main_v27_apply, Read.val_main_v26_apply, eq_ix1 (Read.idx_main_v26 _), eq_ix2 (Read.idx_main_v29 i)]
    rfl
  · rw [Read.val_main_v30_apply, Read.val_main_cst_3_apply]
    exact Ideal.ofBits_zero_f32

theorem relu1_eq : arr2 (Read.val_main_v37 (F := Ideal) x rows0 cols0 vals0 bias0 rows1 cols1 vals1 bias1)
    = relu (arr2 (Read.val_main_v36 (F := Ideal) x rows0 cols0 vals0 bias0 rows1 cols1 vals1 bias1)) := by
  funext p q
  show Read.val_main_v37 (F := Ideal) x rows0 cols0 vals0 bias0 rows1 cols1 vals1 bias1 (ix2 p q) = max _ 0
  rw [Read.val_main_v37_apply, Read.val_main_call1_v0_apply, Read.val_main_call1_cst_apply]
  exact congrArg (max _) Ideal.ofBits_zero_f32

theorem layer2_eq : arr2 (Read.val_main_v55 (F := Ideal) x rows0 cols0 vals0 bias0 rows1 cols1 vals1 bias1 rows2 cols2 vals2 bias2)
    = sparse (arr2 (Read.val_main_v37 (F := Ideal) x rows0 cols0 vals0 bias0 rows1 cols1 vals1 bias1)) (dec hr2) (dec hc2) (arr1 vals2) (arr1 bias2) := by
  funext p r
  show Read.val_main_v55 (F := Ideal) x rows0 cols0 vals0 bias0 rows1 cols1 vals1 bias1 rows2 cols2 vals2 bias2 (ix2 p r) = _
  rw [Read.val_main_v55_apply, Read.val_main_v52_apply, Read.val_main_v54_apply, Read.val_main_v53_apply]
  refine layer_apply gather_S256x2000_S16000x1_S256x16000_0_1_n_n_1_1_2561_wf scatter_S500x256_S16000x1_S16000x256_1_0_0_1_wf _ rows2 cols2 hr2 hc2 vals2 bias2
    (Read.val_main_v43 (F := Ideal) cols2) (Read.val_main_v50 (F := Ideal) rows2) (fun i => ?_) (fun i => ?_)
    (Read.val_main_v48 (F := Ideal) x rows0 cols0 vals0 bias0 rows1 cols1 vals1 bias1 cols2 vals2) (fun i => ?_) (Read.val_main_v49 (F := Ideal)) (fun j => ?_) _ _ rfl
  · rw [Read.val_main_v43_apply, Read.val_main_v42_apply, Read.val_main_v39_apply, Read.val_main_v38_apply, Read.val_main_c_4_apply, eq_ix1 (Read.idx_main_v43 i)]
    exact select_wrap_of_nonneg _ _ (hc2 _).1
  · rw [Read.val_main_v50_apply, eq_ix1 (Read.idx_main_v50 i)]
    rfl
  · rw [Read.val_main_v48_apply, Read.val_main_v47_apply, Read.val_main_v46_apply, Read.val_main_v45_apply, eq_ix1 (Read.idx_main_v45 _), eq_ix2 (Read.idx_main_v48 i)]
    rfl
  · rw [Read.val_main_v49_apply, Read.val_main_cst_6_apply]
    exact Ideal.ofBits_zero_f32

/-- Entry by entry the reference's result is the specification's network. -/
theorem ref_value (p : Fin 256) (r : Fin 500) :
    Read.val_main_v55 (F := Ideal) x rows0 cols0 vals0 bias0 rows1 cols1 vals1 bias1 rows2 cols2 vals2 bias2 (ix2 p r)
      = net (arr2 x) (dec hr0) (dec hc0) (arr1 vals0) (arr1 bias0) (dec hr1) (dec hc1) (arr1 vals1) (arr1 bias1)
          (dec hr2) (dec hc2) (arr1 vals2) (arr1 bias2) p r := by
  show arr2 (Read.val_main_v55 (F := Ideal) x rows0 cols0 vals0 bias0 rows1 cols1 vals1 bias1 rows2 cols2 vals2 bias2) p r = _
  rw [layer2_eq _ _ _ _ _ _ _ _ _ _ _ _ _ hr2 hc2, relu1_eq, layer1_eq _ _ _ _ _ _ _ _ _ hr1 hc1, relu0_eq, layer0_eq _ _ _ _ _ hr0 hc0]
  rfl

end Net

end Cert.ReferenceIdeal.RefValue

end
-- ==== Proof.SparseDense.lean ====
import proofs.«402315_j14740327760019_3_alg».proof.Proof.Spec
import Mathlib.Data.EReal.Operations
import Mathlib.Algebra.BigOperators.Fin
import Mathlib.Logic.Equiv.Fin.Basic

noncomputable section

namespace Cert.Spec

open Finset

theorem coe_finsum {ι : Type*} (s : Finset ι) (f : ι → ℝ) :
    ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem real_finsum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsum]; exact Finset.sum_congr rfl fun i _ => hg i⟩

/-- Over the reals the product distributes over the table's sum, and each edge meets exactly one column. -/
theorem dense_sum {nIn nOut E : ℕ} (x : Fin nIn → EReal) (ri : Fin E → Fin nOut) (ci : Fin E → Fin nIn)
    (v : Fin E → EReal) (hx : ∀ c, ∃ r : ℝ, x c = (r : EReal)) (hv : ∀ e, ∃ r : ℝ, v e = (r : EReal)) (r : Fin nOut) :
    (∑ c, x c * dense ri ci v c r) = ∑ e, if ri e = r then x (ci e) * v e else 0 := by
  choose xr hxr using hx
  choose vr hvr using hv
  have hR : (∑ c, xr c * ∑ e, if ci e = c ∧ ri e = r then vr e else 0)
      = ∑ e, if ri e = r then xr (ci e) * vr e else 0 := by
    simp_rw [Finset.mul_sum]
    rw [Finset.sum_comm]
    refine Finset.sum_congr rfl fun e _ => ?_
    by_cases h : ri e = r <;> simp [h]
  have hc : ∀ (P : Prop) [Decidable P] (a : ℝ), (if P then (a : EReal) else 0) = ((if P then a else 0 : ℝ) : EReal) :=
    fun P _ a => by by_cases h : P <;> simp [h]
  unfold dense
  simp only [hxr, hvr, hc, ← EReal.coe_mul, ← coe_finsum]
  exact congrArg _ hR

/-- A sum whose terms vanish beyond the first `nIn` indices is the sum over those. -/
theorem sum_pad {nIn Kp : ℕ} (hle : nIn ≤ Kp) (g : Fin Kp → EReal) (f : Fin nIn → EReal)
    (hg : ∀ k, g k = if h : k.val < nIn then f ⟨k.val, h⟩ else 0) : ∑ k, g k = ∑ c, f c :=
  (Finset.sum_of_injOn (Fin.castLE hle) (Fin.castLE_injective hle).injOn (fun _ _ => Finset.mem_coe.2 (Finset.mem_univ _))
    (fun k _ hk => (hg k).trans (dif_neg fun h => hk ⟨⟨k.val, h⟩, Finset.mem_coe.2 (Finset.mem_univ _), Fin.ext rfl⟩))
    (fun c _ => ((hg _).trans (dif_pos c.isLt)).symm)).symm

theorem real_sparse {B nIn nOut E : ℕ} (x : Fin B → Fin nIn → EReal) (ri : Fin E → Fin nOut)
    (ci : Fin E → Fin nIn) (v : Fin E → EReal) (b : Fin nOut → EReal)
    (hx : ∀ p c, ∃ r : ℝ, x p c = (r : EReal)) (hv : ∀ e, ∃ r : ℝ, v e = (r : EReal))
    (hb : ∀ r, ∃ s : ℝ, b r = (s : EReal)) (p : Fin B) (r : Fin nOut) : ∃ s : ℝ, sparse x ri ci v b p r = (s : EReal) := by
  obtain ⟨s, hs⟩ := real_finsum Finset.univ (fun e => if ri e = r then x p (ci e) * v e else 0) fun e => by
    obtain ⟨a, ha⟩ := hx p (ci e)
    obtain ⟨w, hw⟩ := hv e
    by_cases h : ri e = r
    · exact ⟨a * w, by rw [if_pos h, ha, hw, EReal.coe_mul]⟩
    · exact ⟨0, if_neg h⟩
  obtain ⟨t, ht⟩ := hb r
  exact ⟨s + t, by unfold sparse; rw [hs, ht, EReal.coe_add]⟩

theorem real_relu {B n : ℕ} (y : Fin B → Fin n → EReal) (hy : ∀ p r, ∃ s : ℝ, y p r = (s : EReal)) (p : Fin B) (r : Fin n) :
    ∃ s : ℝ, relu y p r = (s : EReal) := by
  obtain ⟨s, hs⟩ := hy p r
  exact ⟨max s 0, by unfold relu; rw [hs, ← EReal.coe_zero]; exact (EReal.coe_strictMono.monotone.map_max).symm⟩

theorem block_index_lt {nk tk : ℕ} (i : Fin nk) (q : Fin tk) : i.val * tk + q.val < nk * tk :=
  lt_of_lt_of_le (by rw [Nat.add_mul, Nat.one_mul]; exact Nat.add_lt_add_left q.isLt _ : _ < (i.val + 1) * tk)
    (Nat.mul_le_mul_right _ i.isLt)

def blockSum {nk tk : ℕ} (f : Fin (nk * tk) → EReal) (i : Fin nk) : EReal :=
  ∑ q : Fin tk, f ⟨i.val * tk + q.val, block_index_lt i q⟩

theorem sum_blockSum {nk tk : ℕ} (f : Fin (nk * tk) → EReal) :
    (∑ i : Fin nk, blockSum f i) = ∑ k : Fin (nk * tk), f k := by
  unfold blockSum
  rw [← Fintype.sum_prod_type' (f := fun (i : Fin nk) (q : Fin tk) => f ⟨i.val * tk + q.val, block_index_lt i q⟩),
    ← Equiv.sum_comp (finProdFinEquiv (m := nk) (n := tk)) f]
  refine Finset.sum_congr rfl fun x _ => congrArg f (Fin.ext ?_)
  simp only [finProdFinEquiv_apply_val]
  rw [Nat.mul_comm, Nat.add_comm]

/-- The accumulator after blocks `0, …, j`: block `0` is added to zero, each later block to what came before. -/
def accUpTo {nk tk : ℕ} (f : Fin (nk * tk) → EReal) : (j : ℕ) → j < nk → EReal
  | 0, h => 0 + blockSum f ⟨0, h⟩
  | j + 1, h => accUpTo f j (Nat.lt_of_succ_lt h) + blockSum f ⟨j + 1, h⟩

theorem eq_accUpTo_of_rec {nk tk : ℕ} (f : Fin (nk * tk) → EReal) (a : (j : ℕ) → j < nk → EReal)
    (h0 : ∀ h : 0 < nk, a 0 h = 0 + blockSum f ⟨0, h⟩)
    (hs : ∀ (j : ℕ) (h : j + 1 < nk), a (j + 1) h = a j (Nat.lt_of_succ_lt h) + blockSum f ⟨j + 1, h⟩) :
    ∀ (j : ℕ) (h : j < nk), a j h = accUpTo f j h := by
  intro j
  induction j with
  | zero => exact h0
  | succ j ih => exact fun h => (hs j h).trans (congrArg (· + _) (ih _))

theorem accUpTo_eq_sum_range {nk tk : ℕ} (f : Fin (nk * tk) → EReal) (j : ℕ) (h : j < nk) :
    accUpTo f j h = ∑ i ∈ range (j + 1), if hi : i < nk then blockSum f ⟨i, hi⟩ else 0 := by
  induction j with
  | zero => rw [accUpTo, zero_add, sum_range_one, dif_pos h]
  | succ j ih => rw [accUpTo, ih, sum_range_succ _ (j + 1), dif_pos h]

theorem accUpTo_last {nk tk : ℕ} (f : Fin (nk * tk) → EReal) (h : nk - 1 < nk) :
    accUpTo f (nk - 1) h = ∑ k : Fin (nk * tk), f k := by
  rw [accUpTo_eq_sum_range, Nat.sub_add_cancel (by omega), ← sum_blockSum, ← Fin.sum_univ_eq_sum_range]
  exact Finset.sum_congr rfl fun i _ => dif_pos i.isLt

end Cert.Spec

end
-- ==== Proof.NetGlue.lean ====
import proofs.«402315_j14740327760019_3_alg».proof.Proof.SparseDense

noncomputable section

namespace Cert.Spec

section Layer

variable {B nIn nOut E nk tk Np : ℕ} (hle : nIn ≤ nk * tk)
    (x : Fin B → Fin nIn → EReal) (ri : Fin E → Fin nOut) (ci : Fin E → Fin nIn) (v : Fin E → EReal)
    (b : Fin nOut → EReal)
    (hx : ∀ p c, ∃ r : ℝ, x p c = (r : EReal)) (hv : ∀ e, ∃ r : ℝ, v e = (r : EReal))
    (X : Fin B → Fin (nk * tk) → EReal) (hX : ∀ p k, X p k = if h : k.val < nIn then x p ⟨k.val, h⟩ else 0)
    (W : Fin (nk * tk) → Fin Np → EReal)
    (hW : ∀ k n, W k n = if h : k.val < nIn ∧ n.val < nOut then dense ri ci v ⟨k.val, h.1⟩ ⟨n.val, h.2⟩ else 0)
    (Bv : Fin Np → EReal) (hB : ∀ n, Bv n = if h : n.val < nOut then b ⟨n.val, h⟩ else 0)
    (hk : nk - 1 < nk) (p : Fin B) (n : Fin Np)

include hle hx hv hX hW hB

/-- Input, dense table and bias zero-padded: the product accumulated over all blocks plus the bias is the sparse layer, and zero at the added columns. -/
theorem layer_acc_eq_sparse :
    accUpTo (nk := nk) (tk := tk) (fun k => X p k * W k n) (nk - 1) hk + Bv n
      = if h : n.val < nOut then sparse x ri ci v b p ⟨n.val, h⟩ else 0 := by
  rw [accUpTo_last, hB]
  by_cases h : n.val < nOut
  · rw [dif_pos h, dif_pos h]
    refine congrArg (· + b ⟨n.val, h⟩) ((sum_pad hle _ (fun c => x p c * dense ri ci v c ⟨n.val, h⟩) fun k => ?_).trans
      (dense_sum (x p) ri ci v (hx p) hv _))
    rw [hX, hW]
    by_cases hk' : k.val < nIn
    · rw [dif_pos hk', dif_pos ⟨hk', h⟩, dif_pos hk']
    · rw [dif_neg hk', dif_neg hk', zero_mul]
  · rw [dif_neg h, dif_neg h, add_zero]
    exact Finset.sum_eq_zero fun k _ => by rw [hW, dif_neg fun hh => h hh.2, mul_zero]

theorem layer_acc_relu_eq_sparse :
    max (accUpTo (nk := nk) (tk := tk) (fun k => X p k * W k n) (nk - 1) hk + Bv n) 0
      = if h : n.val < nOut then relu (sparse x ri ci v b) p ⟨n.val, h⟩ else 0 := by
  rw [layer_acc_eq_sparse hle x ri ci v b hx hv X hX W hW Bv hB hk p n]
  by_cases h : n.val < nOut
  · rw [dif_pos h, dif_pos h]; rfl
  · rw [dif_neg h, dif_neg h]; exact max_self 0

end Layer

/-- Three padded layers, 20000 → 8000 → 2000 → 500: each rectified layer is the zero-padded input of the next. -/
theorem net_glue {E0 E1 E2 : ℕ} (x : Fin 256 → Fin 20000 → EReal)
    (r0 : Fin E0 → Fin 8000) (c0 : Fin E0 → Fin 20000) (v0 : Fin E0 → EReal) (b0 : Fin 8000 → EReal)
    (r1 : Fin E1 → Fin 2000) (c1 : Fin E1 → Fin 8000) (v1 : Fin E1 → EReal) (b1 : Fin 2000 → EReal)
    (r2 : Fin E2 → Fin 500) (c2 : Fin E2 → Fin 2000) (v2 : Fin E2 → EReal) (b2 : Fin 500 → EReal)
    (hx : ∀ p c, ∃ r : ℝ, x p c = (r : EReal))
    (hv0 : ∀ e, ∃ r : ℝ, v0 e = (r : EReal)) (hb0 : ∀ n, ∃ r : ℝ, b0 n = (r : EReal))
    (hv1 : ∀ e, ∃ r : ℝ, v1 e = (r : EReal)) (hb1 : ∀ n, ∃ r : ℝ, b1 n = (r : EReal))
    (hv2 : ∀ e, ∃ r : ℝ, v2 e = (r : EReal))
    (X0 : Fin 256 → Fin 20480 → EReal)
    (hX0 : ∀ p k, X0 p k = if h : k.val < 20000 then x p ⟨k.val, h⟩ else 0)
    (W0 : Fin 20480 → Fin 8192 → EReal)
    (hW0 : ∀ k n, W0 k n = if h : k.val < 20000 ∧ n.val < 8000 then dense r0 c0 v0 ⟨k.val, h.1⟩ ⟨n.val, h.2⟩ else 0)
    (B0 : Fin 8192 → EReal) (hB0 : ∀ n, B0 n = if h : n.val < 8000 then b0 ⟨n.val, h⟩ else 0)
    (A0 : Fin 256 → Fin 8192 → EReal)
    (hA0 : ∀ p n, A0 p n
      = max (accUpTo (nk := 20) (tk := 1024) (fun k => X0 p k * W0 k n) 19 (by decide) + B0 n) 0)
    (W1 : Fin 8192 → Fin 2048 → EReal)
    (hW1 : ∀ k n, W1 k n = if h : k.val < 8000 ∧ n.val < 2000 then dense r1 c1 v1 ⟨k.val, h.1⟩ ⟨n.val, h.2⟩ else 0)
    (B1 : Fin 2048 → EReal) (hB1 : ∀ n, B1 n = if h : n.val < 2000 then b1 ⟨n.val, h⟩ else 0)
    (A1 : Fin 256 → Fin 2048 → EReal)
    (hA1 : ∀ p n, A1 p n
      = max (accUpTo (nk := 16) (tk := 512) (fun k => A0 p k * W1 k n) 15 (by decide) + B1 n) 0)
    (W2 : Fin 2048 → Fin 512 → EReal)
    (hW2 : ∀ k n, W2 k n = if h : k.val < 2000 ∧ n.val < 500 then dense r2 c2 v2 ⟨k.val, h.1⟩ ⟨n.val, h.2⟩ else 0)
    (B2 : Fin 512 → EReal) (hB2 : ∀ n, B2 n = if h : n.val < 500 then b2 ⟨n.val, h⟩ else 0)
    (A2 : Fin 256 → Fin 512 → EReal)
    (hA2 : ∀ p n, A2 p n = accUpTo (nk := 4) (tk := 512) (fun k => A1 p k * W2 k n) 3 (by decide) + B2 n) :
    ∀ (p : Fin 256) (r : Fin 500),
      A2 p ⟨r.val, lt_trans r.isLt (by decide)⟩ = net x r0 c0 v0 b0 r1 c1 v1 b1 r2 c2 v2 b2 p r := by
  intro p r
  have hy0 := real_relu _ (real_sparse x r0 c0 v0 b0 hx hv0 hb0)
  have h0 : ∀ p n, A0 p n = if h : n.val < 8000 then relu (sparse x r0 c0 v0 b0) p ⟨n.val, h⟩ else 0 := fun p n =>
    (hA0 p n).trans (layer_acc_relu_eq_sparse (nk := 20) (tk := 1024) (by decide) x r0 c0 v0 b0 hx hv0 X0 hX0 W0 hW0 B0 hB0
      (by decide) p n)
  have h1 : ∀ p n, A1 p n
      = if h : n.val < 2000 then relu (sparse (relu (sparse x r0 c0 v0 b0)) r1 c1 v1 b1) p ⟨n.val, h⟩ else 0 := fun p n =>
    (hA1 p n).trans (layer_acc_relu_eq_sparse (nk := 16) (tk := 512) (by decide) _ r1 c1 v1 b1 hy0 hv1 A0 h0 W1 hW1 B1 hB1
      (by decide) p n)
  exact ((hA2 p _).trans (layer_acc_eq_sparse (nk := 4) (tk := 512) (by decide) _ r2 c2 v2 b2
    (real_relu _ (real_sparse _ r1 c1 v1 b1 hy0 hv1 hb1)) hv2 A1 h1 W2 hW2 B2 hB2 (by decide) p _)).trans (dif_pos r.isLt)

end Cert.Spec

end
-- ==== Proof.Result.lean ====
import proofs.«402315_j14740327760019_3_alg».proof.Proof.Spec

noncomputable section

namespace Cert.Spec

open Idealize.ShloMosaic Idealize.ShloMosaic.ValueIdx

variable (x : (⟨2, ![256, 20000]⟩ : Shape).Idx → EReal)
  (rows0 cols0 : (⟨1, ![256000]⟩ : Shape).Idx → BitVec 32) (vals0 : (⟨1, ![256000]⟩ : Shape).Idx → EReal)
  (bias0 : (⟨1, ![8000]⟩ : Shape).Idx → EReal)
  (rows1 cols1 : (⟨1, ![64000]⟩ : Shape).Idx → BitVec 32) (vals1 : (⟨1, ![64000]⟩ : Shape).Idx → EReal)
  (bias1 : (⟨1, ![2000]⟩ : Shape).Idx → EReal)
  (rows2 cols2 : (⟨1, ![16000]⟩ : Shape).Idx → BitVec 32) (vals2 : (⟨1, ![16000]⟩ : Shape).Idx → EReal)
  (bias2 : (⟨1, ![500]⟩ : Shape).Idx → EReal)
  (hr0 : InRange rows0 8000) (hc0 : InRange cols0 20000) (hr1 : InRange rows1 2000) (hc1 : InRange cols1 8000)
  (hr2 : InRange rows2 500) (hc2 : InRange cols2 2000)

abbrev netAt (p : Fin 256) (r : Fin 500) : EReal :=
  net (arr2 x) (dec hr0) (dec hc0) (arr1 vals0) (arr1 bias0) (dec hr1) (dec hc1) (arr1 vals1) (arr1 bias1)
    (dec hr2) (dec hc2) (arr1 vals2) (arr1 bias2) p r

/-- The network's output as one array over [256, 500]. -/
def result : (⟨2, ![256, 500]⟩ : Shape).Idx → EReal :=
  fun j => netAt x rows0 cols0 vals0 bias0 rows1 cols1 vals1 bias1 rows2 cols2 vals2 bias2 hr0 hc0 hr1 hc1 hr2 hc2
    ⟨(j 0).val, idx2_lt0 j⟩ ⟨(j 1).val, idx2_lt1 j⟩

/-- Every index is a pair of coordinates, so agreeing with the network at every pair is being its output. -/
theorem eq_result (T : (⟨2, ![256, 500]⟩ : Shape).Idx → EReal)
    (h : ∀ (p : Fin 256) (r : Fin 500), T (ix2 p r)
      = netAt x rows0 cols0 vals0 bias0 rows1 cols1 vals1 bias1 rows2 cols2 vals2 bias2 hr0 hc0 hr1 hc1 hr2 hc2 p r) :
    T = result x rows0 cols0 vals0 bias0 rows1 cols1 vals1 bias1 rows2 cols2 vals2 bias2 hr0 hc0 hr1 hc1 hr2 hc2 :=
  funext fun j => (congrArg T (eq_ix2 j)).trans (h _ _)

end Cert.Spec

end
-- ==== Proof.PreFacts.lean ====
import proofs.«402315_j14740327760019_3_alg».proof.Pre_finite_inputs
import proofs.«402315_j14740327760019_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Pre_finite_inputs Cert.Pre_finite_inputs.Facts

theorem subsingleton_S_ : Subsingleton S_.Idx := ⟨fun a b => funext fun d => d.elim0⟩

/-- `max a (-a) < +∞` excludes `a = ±∞`. -/
theorem real_of_cmp (a : EReal) (h : Ideal.cmp .olt (max a (-a)) (Ideal.ofBits .f32 0x7F800000#32) = 1#1) :
    ∃ r : ℝ, a = (r : EReal) := by
  have hinf : Ideal.ofBits .f32 0x7F800000#32 = (⊤ : EReal) := by simp [Ideal.ofBits, Ideal.ieee]
  rw [hinf] at h
  have h' : max a (-a) < ⊤ := by simpa [Ideal.cmp, StableHlo.Predicate.ofBool_eq_one_iff] using h
  induction a using EReal.rec with
  | bot => simp at h'
  | coe r => exact ⟨r, rfl⟩
  | top => simp at h'

/-- An "and" over a whole array that is 1 met a 1 at every entry: every entry passes `|a| < +∞`. -/
theorem real_of_all {S : Shape} {axes : List (Fin S.rank)} (bc : S_.BroadcastsInDim S (![] : Fin 0 → Fin S.rank))
    (red : S.ReducesTo axes S_) (hu : 0 < S_.numel) (a : FVec Ideal S .f32) (init : IVec S_ 1) (j : S_.Idx)
    (e : Host.reduce IntOp.andi (cmpf .olt (Host.absf a) (broadcastInDim S ![] bc (constant (F := Ideal) S_ .f32 0x7F800000#32)))
      init red hu j = 1#1) (i : S.Idx) : ∃ r : ℝ, a i = (r : EReal) :=
  haveI := subsingleton_S_
  real_of_cmp (a i) (Host.reduce_andi_all _ init red hu j e i)

/-- Every word passes `0 ≤ w` and `w < n` read signed: the array lies in `[0, n)`. -/
theorem inRange_of_all {E : ℕ} {axes : List (Fin (⟨1, ![E]⟩ : Shape).rank)} (n : ℕ) (hn : n < 2 ^ 31)
    (bc : S_.BroadcastsInDim ⟨1, ![E]⟩ (![] : Fin 0 → Fin (⟨1, ![E]⟩ : Shape).rank))
    (red : (⟨1, ![E]⟩ : Shape).ReducesTo axes S_) (hu : 0 < S_.numel) (w : IVec ⟨1, ![E]⟩ 32) (init init' : IVec S_ 1) (j : S_.Idx)
    (e0 : Host.reduce IntOp.andi (cmpi .sge w (broadcastInDim ⟨1, ![E]⟩ ![] bc (constantI S_ 32 0#32))) init red hu j = 1#1)
    (e1 : Host.reduce IntOp.andi (cmpi .slt w (broadcastInDim ⟨1, ![E]⟩ ![] bc (constantI S_ 32 (BitVec.ofNat 32 n)))) init' red hu j = 1#1) :
    Cert.Spec.InRange w n := fun i => by
  haveI := subsingleton_S_
  have h0 : (0#32 : BitVec 32).toInt ≤ (w (ix1 i)).toInt := IntOp.cmpi_sge.1 (Host.reduce_andi_all _ init red hu j e0 (ix1 i))
  have h1 : (w (ix1 i)).toInt < (BitVec.ofNat 32 n).toInt := IntOp.cmpi_slt.1 (Host.reduce_andi_all _ init' red hu j e1 (ix1 i))
  rw [StableHlo.Predicate.toInt_ofNat_small n hn] at h1
  exact ⟨h0, h1⟩

variable [Facts] (x : FVec Ideal S256x20000 .f32) (rows0 cols0 : IVec S256000 32) (vals0 : FVec Ideal S256000 .f32)
  (bias0 : FVec Ideal S8000 .f32) (rows1 cols1 : IVec S64000 32) (vals1 : FVec Ideal S64000 .f32) (bias1 : FVec Ideal S2000 .f32)
  (rows2 cols2 : IVec S16000 32) (vals2 : FVec Ideal S16000 .f32) (bias2 : FVec Ideal S500 .f32)

/-- What the precondition says: the real-valued arrays hold real numbers, the index arrays lie in their ranges. -/
structure Decoded : Prop where
  x_real : ∀ i, ∃ r : ℝ, x i = (r : EReal)
  vals0_real : ∀ i, ∃ r : ℝ, vals0 i = (r : EReal)
  bias0_real : ∀ i, ∃ r : ℝ, bias0 i = (r : EReal)
  vals1_real : ∀ i, ∃ r : ℝ, vals1 i = (r : EReal)
  bias1_real : ∀ i, ∃ r : ℝ, bias1 i = (r : EReal)
  vals2_real : ∀ i, ∃ r : ℝ, vals2 i = (r : EReal)
  bias2_real : ∀ i, ∃ r : ℝ, bias2 i = (r : EReal)
  rows0_range : Cert.Spec.InRange rows0 8000
  cols0_range : Cert.Spec.InRange cols0 20000
  rows1_range : Cert.Spec.InRange rows1 2000
  cols1_range : Cert.Spec.InRange cols1 8000
  rows2_range : Cert.Spec.InRange rows2 500
  cols2_range : Cert.Spec.InRange cols2 2000

/-- The precondition is a conjunction of nineteen such tests; a conjunction of bits is 1 exactly when each bit is. -/
theorem decoded
    (h : Cert.Pre_finite_inputs.fn (F := Ideal) x rows0 cols0 vals0 bias0 rows1 cols1 vals1 bias1 rows2 cols2 vals2 bias2 = (fun _ => 1#1)) :
    Decoded x rows0 cols0 vals0 bias0 rows1 cols1 vals1 bias1 rows2 cols2 vals2 bias2 := by
  have e := congrFun h ix0
  dsimp only [fn, fn_part1, fn_part2, fn_part3, fn_part4, andi] at e
  simp only [IntOp.andi_eq_one] at e
  obtain ⟨⟨⟨⟨⟨⟨⟨⟨⟨⟨⟨⟨⟨⟨⟨⟨⟨⟨a1, a2⟩, a3⟩, a4⟩, a5⟩, a6⟩, a7⟩, a8⟩, a9⟩, a10⟩, a11⟩, a12⟩, a13⟩, a14⟩, a15⟩, a16⟩, a17⟩, a18⟩, a19⟩ := e
  exact ⟨real_of_all _ _ _ _ _ _ a1, real_of_all _ _ _ _ _ _ a2, real_of_all _ _ _ _ _ _ a3, real_of_all _ _ _ _ _ _ a4,
    real_of_all _ _ _ _ _ _ a5, real_of_all _ _ _ _ _ _ a6, real_of_all _ _ _ _ _ _ a7,
    inRange_of_all 8000 (by norm_num) _ _ _ _ _ _ _ a8 a9, inRange_of_all 20000 (by norm_num) _ _ _ _ _ _ _ a10 a11,
    inRange_of_all 2000 (by norm_num) _ _ _ _ _ _ _ a12 a13, inRange_of_all 8000 (by norm_num) _ _ _ _ _ _ _ a14 a15,
    inRange_of_all 500 (by norm_num) _ _ _ _ _ _ _ a16 a17, inRange_of_all 2000 (by norm_num) _ _ _ _ _ _ _ a18 a19⟩

end Cert.PreFacts

end
-- ==== Proof.KI.R0Shared.lean ====
import proofs.«402315_j14740327760019_3_alg».proof.Proof.Gen.KernelIdeal.Launch
import proofs.«402315_j14740327760019_3_alg».proof.Proof.Gen.KernelIdeal.Skeleton
import proofs.«402315_j14740327760019_3_alg».proof.Proof.Gen.KernelIdeal.Points
import proofs.«402315_j14740327760019_3_alg».proof.Proof.LibBody
import Idealize.ShloMosaic.Lib.Pipeline.Regions
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem live0 : ∀ (w : Fin cfg0.W) (t : Fin cfg0.N), w ≠ 3 ∨ t.val % 20 = 19 → cfg0.idle w (grid0.coords t) = false := by decide +kernel
theorem idle0_3 : ∀ t : Fin cfg0.N, t.val % 20 ≠ 19 → cfg0.idle 3 (grid0.coords t) = true ∧ (cfg0.win 3).flush t = false := by decide +kernel

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev scM0_0 : Memref sig .tc .vmem S256x4096 .f32 := Memref.whole cc0_scratch0

abbrev oth0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ oth0 (F := F) c) ∗ (∃ r, prngReg c r)) := by
  unfold Pipeline.ΦA; rw [Pipeline.scopedRest_split_of_list spec0 c [cc0_scratch0] (by decide) (by decide)]
  simp only [scM0_0, owns_whole]; rfl

end Cert.KernelIdeal.Gen

end
-- ==== Proof.KI.R0Run.lean ====
import proofs.«402315_j14740327760019_3_alg».proof.Proof.KI.R0Shared

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (c : Dev nD) (i : grid0.Coords) (arg2 : Memref sig .tc .vmem S256x1024 .bf16) (harg2 : arg2.IsWhole)
  (arg3 : Memref sig .tc .vmem S1024x4096 .bf16) (harg3 : arg3.IsWhole) (arg4 : Memref sig .tc .vmem S1x4096 .f32) (harg4 : arg4.IsWhole)
  (arg5 : Memref sig .tc .vmem S256x4096 .bf16) (harg5 : arg5.IsWhole) (arg6 : Memref sig .tc .vmem S256x4096 .f32) (harg6 : arg6.IsWhole)
  (x0 : Vec F S256x1024 .bf16) (x1 : Vec F S1024x4096 .bf16) (x2 : Vec F S1x4096 .f32)

/-- The body at a grid point: the accumulator, cleared first where the point opens a row of the grid, gains the block product; where the point closes the row the output block is the last payload of it and the bias row, elsewhere as found. -/
theorem run0 (xi3 O : Vec F S256x4096 .bf16) (xs0 A : Vec F S256x4096 .f32)
    (hA : A = k0_pay2 (if cond0_0 i then k0_pay1 else xs0) x0 x1) (hO : O = if cond0_1 i then k0_pay3 A x2 else xi3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare O ∗ owns (c : Thread nD τ) arg6 fullShare A) -∗ K ⟨⟩))
      ⊢ wp frame (wpE (defs₀ (F := F)) Variants.none c none) E (cc0__mm_kernel i arg2 harg2 arg3 harg3 arg4 harg4 arg5 harg5 arg6 harg6) K := by
  subst hA hO
  by_cases hc0 : cond0_0 i <;> by_cases hc1 : cond0_1 i <;>
    (first | rw [if_pos hc0] | rw [if_neg hc0]) <;> (first | rw [if_pos hc1] | rw [if_neg hc1]) <;> (
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; first | (sl_unfold_words; rw [View.read_writes_unit_zero _ _ View.hz2]; simp only [View.readAt_eq_ld, hf0, hf1, hf2, hfs0, View.ld_unit_zero (S := S256x1024) View.hz2, View.ld_unit_zero (S := S1024x4096) View.hz2, View.ld_unit_zero (S := S256x4096) View.hz2, View.ld_unit_zero (S := S1x4096) View.hz2, View.readCov_cons_unit_zero (S := S256x4096) _ View.hz2]) | exact hf3
    iexists _; isplitr; swap; · iexact HS0
    ipureintro; sl_unfold_words; rw [View.read_writes_unit_zero _ _ View.hz2]; simp only [View.readAt_eq_ld, hf0, hf1, hf2, hfs0, View.ld_unit_zero (S := S256x1024) View.hz2, View.ld_unit_zero (S := S1024x4096) View.hz2, View.ld_unit_zero (S := S256x4096) View.hz2, View.ld_unit_zero (S := S1x4096) View.hz2, View.readCov_cons_unit_zero (S := S256x4096) _ View.hz2])

end Cert.KernelIdeal.Gen

end
-- ==== Proof.KI.R0Body.lean ====
import proofs.«402315_j14740327760019_3_alg».proof.Proof.KI.R0Run

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the block product added to the cleared accumulator at the first step of a row of the grid, elsewhere to what the position before left. -/
def accAt0 (c : Dev nD) : (n : ℕ) → n < cfg0.N → Vec F S256x4096 .f32
  | 0, hn => k0_pay2 k0_pay1 (iblk0 V c 0 ⟨0, hn⟩) (iblk0 V c 1 ⟨0, hn⟩)
  | n + 1, hn => k0_pay2 (if (n + 1) % 20 = 0 then k0_pay1 else accAt0 c n (Nat.lt_of_succ_lt hn)) (iblk0 V c 0 ⟨n + 1, hn⟩) (iblk0 V c 1 ⟨n + 1, hn⟩)

theorem accAt0_first (c : Dev nD) (t : Fin cfg0.N) (h0 : t.val % 20 = 0) :
    accAt0 V c t.val t.isLt = k0_pay2 k0_pay1 (iblk0 V c 0 t) (iblk0 V c 1 t) := by
  obtain ⟨n, hn⟩ := t
  cases n with
  | zero => rfl
  | succ n => unfold accAt0; rw [if_pos h0]

theorem accAt0_next (c : Dev nD) (t : Fin cfg0.N) (h0 : ¬t.val % 20 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => rw [accAt0, if_neg h0]; rfl

/-- The same step from any contents that are the position before's where there is one: the first point clears them. -/
theorem accAt0_step (c : Dev nD) (t : Fin cfg0.N) (xs0 : Vec F S256x4096 .f32)
    (h : ∀ hz : t.val ≠ 0, xs0 = accAt0 V c (t.val - 1) (by omega)) :
    accAt0 V c t.val t.isLt = k0_pay2 (if cond0_0 (grid0.coords t) then k0_pay1 else xs0) (iblk0 V c 0 t) (iblk0 V c 1 t) := by
  by_cases h0 : t.val % 20 = 0
  · rw [if_pos ((hcond0_0 t).mpr h0), accAt0_first V c t h0]
  · rw [if_neg fun hc => h0 ((hcond0_0 t).mp hc), accAt0_next V c t h0, h fun e => h0 (by rw [e])]

/-- The output block and the accumulator after position `n`. -/
def outsAt0 (c : Dev nD) (n : ℕ) (hn : n < cfg0.N) : Vec F S256x4096 .bf16 × Vec F S256x4096 .f32 :=
  (k0_pay3 (accAt0 V c n hn) (iblk0 V c 2 ⟨n, hn⟩), accAt0 V c n hn)

def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ oth0 (F := F) c) ∗ (∃ r, prngReg c r))

theorem PhiS0_open (c : Dev nD) (n : ℕ) (h : n ≤ cfg0.N) :
    PhiS0 V c n h ⊢ iprop(∃ xs0, ⌜∀ hz : n ≠ 0, xs0 = accAt0 V c (n - 1) (by omega)⌝ ∗ owns (c : Thread nD τ) scM0_0 fullShare xs0 ∗ oth0 (F := F) c ∗ (∃ r, prngReg c r)) := by
  cases n with
  | zero =>
    rw [PhiS0, PhiA0_eq]
    iintro ⟨⟨⟨%d, HS0⟩, Hoth⟩, Hg⟩
    iexists d; isplitr; · ipureintro; exact fun hz => absurd rfl hz
    isplitl [HS0]; · iexact HS0
    isplitl [Hoth]; · iexact Hoth
    iexact Hg
  | succ n =>
    rw [PhiS0]
    iintro ⟨⟨HS0, Hoth⟩, Hg⟩
    iexists accAt0 V c n h; isplitr; · ipureintro; exact fun _ => rfl
    isplitl [HS0]; · iexact HS0
    isplitl [Hoth]; · iexact Hoth
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
      ⊢ wp frame (wpE (defs₀ (F := F)) Variants.none c none) Set.univ (bodyAt0 t) (fun _ =>
        iprop((dat0 V c).Φ t.succ ∗ (dat0 V c).owesAt () t.succ ∗ (dat0 V c).leavesExact 0 t ∗ (dat0 V c).leavesExact 1 t
          ∗ (dat0 V c).leavesExact 2 t ∗ (dat0 V c).leavesExact 3 t)) := by
  unfold bodyAt0
  simp only [before0_0, before0_1, before0_2]
  rw [show (dat0 V c).owesAt () t.succ = (dat0 V c).owesAt () t.castSucc from rfl,
    show (dat0 V c).Φ t.succ = iprop(iprop(owns (c : Thread nD τ) scM0_0 fullShare (accAt0 V c t.val t.isLt) ∗ oth0 (F := F) c) ∗ (∃ r, prngReg c r)) from rfl,
    show (dat0 V c).Φ t.castSucc = PhiS0 V c t.val (Nat.le_of_lt t.isLt) from rfl,
    (dat0 V c).leavesExact_live 0 t (live0 0 t (.inl (by decide))), (dat0 V c).leavesExact_live 1 t (live0 1 t (.inl (by decide))),
    (dat0 V c).leavesExact_live 2 t (live0 2 t (.inl (by decide)))]
  have key : ∀ d3, ∃ O, O = (if cond0_1 (grid0.coords t) then k0_pay3 (accAt0 V c t.val t.isLt) (iblk0 V c 2 t) else (dat0 V c).before 3 t d3)
      ∧ (owns (c : Thread nD τ) (ms0_3 t) fullShare O ⊢ (dat0 V c).leavesExact 3 t) := fun d3 => by
    by_cases h1 : t.val % 20 = 19
    · exact ⟨(dat0 V c).after 3 t, (if_pos ((hcond0_1 t).mpr h1)).symm, by
        rw [(dat0 V c).leavesExact_live 3 t (live0 3 t (.inr h1))]⟩
    · exact ⟨_, (if_neg fun h => h1 ((hcond0_1 t).mp h)).symm, by
        rw [Dat.leavesExact_idle (dat0 V c) 3 t (idle0_3 t h1).1 (idle0_3 t h1).2]; iintro H; iexists _; iexact H⟩
  iintro ⟨HΦ, Ho, ⟨%d0, H0⟩, ⟨%d1, H1⟩, ⟨%d2, H2⟩, ⟨%d3, H3⟩⟩
  obtain ⟨O, hO, hL⟩ := key d3
  ihave HΦ := (PhiS0_open V c _ _) $$ HΦ
  icases HΦ with ⟨%xs0, %hxs, HS0, Hoth, Hg⟩
  iapply (run0 c (grid0.coords t) _ (hs0_0 t) _ (hs0_1 t) _ (hs0_2 t) _ (hs0_3 t) _ (Memref.isWhole_whole _) (iblk0 V c 0 t) (iblk0 V c 1 t) (iblk0 V c 2 t)
    _ O xs0 _ (accAt0_step V c t xs0 hxs) hO Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hoth Hg]
  · isplitl [HS0 Hoth]
    · isplitl [HS0]; · iexact HS0
      iexact Hoth
    iexact Hg
  isplitl [Ho]; · iexact Ho
  isplitl [H0]; · iexact H0
  isplitl [H1]; · iexact H1
  isplitl [H2]; · iexact H2
  iapply hL; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]
  refine (PhiS0_open V c cfg0.N le_rfl).trans ?_
  iintro ⟨%xs0, -, HS0, Hoth, Hg⟩
  isplitl [HS0 Hoth]
  · isplitl [HS0]; · iexists _; iexact HS0
    iexact Hoth
  iexact Hg

end Cert.KernelIdeal.Gen

end
-- ==== Proof.KI.R1Shared.lean ====
import proofs.«402315_j14740327760019_3_alg».proof.Proof.Gen.KernelIdeal.Launch
import proofs.«402315_j14740327760019_3_alg».proof.Proof.Gen.KernelIdeal.Skeleton
import proofs.«402315_j14740327760019_3_alg».proof.Proof.Gen.KernelIdeal.Points
import proofs.«402315_j14740327760019_3_alg».proof.Proof.LibBody
import Idealize.ShloMosaic.Lib.Pipeline.Regions
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem live1 : ∀ (w : Fin cfg1.W) (t : Fin cfg1.N), w ≠ 3 ∨ t.val % 16 = 15 → cfg1.idle w (grid1.coords t) = false := by decide +kernel
theorem idle1_3 : ∀ t : Fin cfg1.N, t.val % 16 ≠ 15 → cfg1.idle 3 (grid1.coords t) = true ∧ (cfg1.win 3).flush t = false := by decide +kernel

abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev scM1_0 : Memref sig .tc .vmem S256x1024 .f32 := Memref.whole cc1_scratch0

abbrev oth1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ oth1 (F := F) c) ∗ (∃ r, prngReg c r)) := by
  unfold Pipeline.ΦA; rw [Pipeline.scopedRest_split_of_list spec1 c [cc1_scratch0] (by decide) (by decide)]
  simp only [scM1_0, owns_whole]; rfl

end Cert.KernelIdeal.Gen

end
-- ==== Proof.KI.R1Run.lean ====
import proofs.«402315_j14740327760019_3_alg».proof.Proof.KI.R1Shared

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (c : Dev nD) (i : grid1.Coords) (arg2 : Memref sig .tc .vmem S256x512 .bf16) (harg2 : arg2.IsWhole)
  (arg3 : Memref sig .tc .vmem S512x1024 .bf16) (harg3 : arg3.IsWhole) (arg4 : Memref sig .tc .vmem S1x1024 .f32) (harg4 : arg4.IsWhole)
  (arg5 : Memref sig .tc .vmem S256x1024 .bf16) (harg5 : arg5.IsWhole) (arg6 : Memref sig .tc .vmem S256x1024 .f32) (harg6 : arg6.IsWhole)
  (x0 : Vec F S256x512 .bf16) (x1 : Vec F S512x1024 .bf16) (x2 : Vec F S1x1024 .f32)

/-- The body at a grid point: the accumulator, cleared first where the point opens a row of the grid, gains the block product; where the point closes the row the output block is the last payload of it and the bias row, elsewhere as found. -/
theorem run1 (xi3 O : Vec F S256x1024 .bf16) (xs0 A : Vec F S256x1024 .f32)
    (hA : A = k1_pay2 (if cond1_0 i then k1_pay1 else xs0) x0 x1) (hO : O = if cond1_1 i then k1_pay3 A x2 else xi3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare O ∗ owns (c : Thread nD τ) arg6 fullShare A) -∗ K ⟨⟩))
      ⊢ wp frame (wpE (defs₀ (F := F)) Variants.none c none) E (cc1__mm_kernel i arg2 harg2 arg3 harg3 arg4 harg4 arg5 harg5 arg6 harg6) K := by
  subst hA hO
  by_cases hc0 : cond1_0 i <;> by_cases hc1 : cond1_1 i <;>
    (first | rw [if_pos hc0] | rw [if_neg hc0]) <;> (first | rw [if_pos hc1] | rw [if_neg hc1]) <;> (
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; first | (sl_unfold_words; rw [View.read_writes_unit_zero _ _ View.hz2]; simp only [View.readAt_eq_ld, hf0, hf1, hf2, hfs0, View.ld_unit_zero (S := S256x512) View.hz2, View.ld_unit_zero (S := S512x1024) View.hz2, View.ld_unit_zero (S := S256x1024) View.hz2, View.ld_unit_zero (S := S1x1024) View.hz2, View.readCov_cons_unit_zero (S := S256x1024) _ View.hz2]) | exact hf3
    iexists _; isplitr; swap; · iexact HS0
    ipureintro; sl_unfold_words; rw [View.read_writes_unit_zero _ _ View.hz2]; simp only [View.readAt_eq_ld, hf0, hf1, hf2, hfs0, View.ld_unit_zero (S := S256x512) View.hz2, View.ld_unit_zero (S := S512x1024) View.hz2, View.ld_unit_zero (S := S256x1024) View.hz2, View.ld_unit_zero (S := S1x1024) View.hz2, View.readCov_cons_unit_zero (S := S256x1024) _ View.hz2])

end Cert.KernelIdeal.Gen

end
-- ==== Proof.KI.R1Body.lean ====
import proofs.«402315_j14740327760019_3_alg».proof.Proof.KI.R1Run

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the block product added to the cleared accumulator at the first step of a row of the grid, elsewhere to what the position before left. -/
def accAt1 (c : Dev nD) : (n : ℕ) → n < cfg1.N → Vec F S256x1024 .f32
  | 0, hn => k1_pay2 k1_pay1 (iblk1 V c 0 ⟨0, hn⟩) (iblk1 V c 1 ⟨0, hn⟩)
  | n + 1, hn => k1_pay2 (if (n + 1) % 16 = 0 then k1_pay1 else accAt1 c n (Nat.lt_of_succ_lt hn)) (iblk1 V c 0 ⟨n + 1, hn⟩) (iblk1 V c 1 ⟨n + 1, hn⟩)

theorem accAt1_first (c : Dev nD) (t : Fin cfg1.N) (h0 : t.val % 16 = 0) :
    accAt1 V c t.val t.isLt = k1_pay2 k1_pay1 (iblk1 V c 0 t) (iblk1 V c 1 t) := by
  obtain ⟨n, hn⟩ := t
  cases n with
  | zero => rfl
  | succ n => unfold accAt1; rw [if_pos h0]

theorem accAt1_next (c : Dev nD) (t : Fin cfg1.N) (h0 : ¬t.val % 16 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => rw [accAt1, if_neg h0]; rfl

/-- The same step from any contents that are the position before's where there is one: the first point clears them. -/
theorem accAt1_step (c : Dev nD) (t : Fin cfg1.N) (xs0 : Vec F S256x1024 .f32)
    (h : ∀ hz : t.val ≠ 0, xs0 = accAt1 V c (t.val - 1) (by omega)) :
    accAt1 V c t.val t.isLt = k1_pay2 (if cond1_0 (grid1.coords t) then k1_pay1 else xs0) (iblk1 V c 0 t) (iblk1 V c 1 t) := by
  by_cases h0 : t.val % 16 = 0
  · rw [if_pos ((hcond1_0 t).mpr h0), accAt1_first V c t h0]
  · rw [if_neg fun hc => h0 ((hcond1_0 t).mp hc), accAt1_next V c t h0, h fun e => h0 (by rw [e])]

/-- The output block and the accumulator after position `n`. -/
def outsAt1 (c : Dev nD) (n : ℕ) (hn : n < cfg1.N) : Vec F S256x1024 .bf16 × Vec F S256x1024 .f32 :=
  (k1_pay3 (accAt1 V c n hn) (iblk1 V c 2 ⟨n, hn⟩), accAt1 V c n hn)

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ oth1 (F := F) c) ∗ (∃ r, prngReg c r))

theorem PhiS1_open (c : Dev nD) (n : ℕ) (h : n ≤ cfg1.N) :
    PhiS1 V c n h ⊢ iprop(∃ xs0, ⌜∀ hz : n ≠ 0, xs0 = accAt1 V c (n - 1) (by omega)⌝ ∗ owns (c : Thread nD τ) scM1_0 fullShare xs0 ∗ oth1 (F := F) c ∗ (∃ r, prngReg c r)) := by
  cases n with
  | zero =>
    rw [PhiS1, PhiA1_eq]
    iintro ⟨⟨⟨%d, HS0⟩, Hoth⟩, Hg⟩
    iexists d; isplitr; · ipureintro; exact fun hz => absurd rfl hz
    isplitl [HS0]; · iexact HS0
    isplitl [Hoth]; · iexact Hoth
    iexact Hg
  | succ n =>
    rw [PhiS1]
    iintro ⟨⟨HS0, Hoth⟩, Hg⟩
    iexists accAt1 V c n h; isplitr; · ipureintro; exact fun _ => rfl
    isplitl [HS0]; · iexact HS0
    isplitl [Hoth]; · iexact Hoth
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
      ⊢ wp frame (wpE (defs₀ (F := F)) Variants.none c none) Set.univ (bodyAt1 t) (fun _ =>
        iprop((dat1 V c).Φ t.succ ∗ (dat1 V c).owesAt () t.succ ∗ (dat1 V c).leavesExact 0 t ∗ (dat1 V c).leavesExact 1 t
          ∗ (dat1 V c).leavesExact 2 t ∗ (dat1 V c).leavesExact 3 t)) := by
  unfold bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare (accAt1 V c t.val t.isLt) ∗ oth1 (F := F) c) ∗ (∃ r, prngReg c r)) from rfl,
    show (dat1 V c).Φ t.castSucc = PhiS1 V c t.val (Nat.le_of_lt t.isLt) from rfl,
    (dat1 V c).leavesExact_live 0 t (live1 0 t (.inl (by decide))), (dat1 V c).leavesExact_live 1 t (live1 1 t (.inl (by decide))),
    (dat1 V c).leavesExact_live 2 t (live1 2 t (.inl (by decide)))]
  have key : ∀ d3, ∃ O, O = (if cond1_1 (grid1.coords t) then k1_pay3 (accAt1 V c t.val t.isLt) (iblk1 V c 2 t) else (dat1 V c).before 3 t d3)
      ∧ (owns (c : Thread nD τ) (ms1_3 t) fullShare O ⊢ (dat1 V c).leavesExact 3 t) := fun d3 => by
    by_cases h1 : t.val % 16 = 15
    · exact ⟨(dat1 V c).after 3 t, (if_pos ((hcond1_1 t).mpr h1)).symm, by
        rw [(dat1 V c).leavesExact_live 3 t (live1 3 t (.inr h1))]⟩
    · exact ⟨_, (if_neg fun h => h1 ((hcond1_1 t).mp h)).symm, by
        rw [Dat.leavesExact_idle (dat1 V c) 3 t (idle1_3 t h1).1 (idle1_3 t h1).2]; iintro H; iexists _; iexact H⟩
  iintro ⟨HΦ, Ho, ⟨%d0, H0⟩, ⟨%d1, H1⟩, ⟨%d2, H2⟩, ⟨%d3, H3⟩⟩
  obtain ⟨O, hO, hL⟩ := key d3
  ihave HΦ := (PhiS1_open V c _ _) $$ HΦ
  icases HΦ with ⟨%xs0, %hxs, HS0, Hoth, Hg⟩
  iapply (run1 c (grid1.coords t) _ (hs1_0 t) _ (hs1_1 t) _ (hs1_2 t) _ (hs1_3 t) _ (Memref.isWhole_whole _) (iblk1 V c 0 t) (iblk1 V c 1 t) (iblk1 V c 2 t)
    _ O xs0 _ (accAt1_step V c t xs0 hxs) hO Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hoth Hg]
  · isplitl [HS0 Hoth]
    · isplitl [HS0]; · iexact HS0
      iexact Hoth
    iexact Hg
  isplitl [Ho]; · iexact Ho
  isplitl [H0]; · iexact H0
  isplitl [H1]; · iexact H1
  isplitl [H2]; · iexact H2
  iapply hL; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]
  refine (PhiS1_open V c cfg1.N le_rfl).trans ?_
  iintro ⟨%xs0, -, HS0, Hoth, Hg⟩
  isplitl [HS0 Hoth]
  · isplitl [HS0]; · iexists _; iexact HS0
    iexact Hoth
  iexact Hg

end Cert.KernelIdeal.Gen

end
-- ==== Proof.KI.R2Shared.lean ====
import proofs.«402315_j14740327760019_3_alg».proof.Proof.Gen.KernelIdeal.Launch
import proofs.«402315_j14740327760019_3_alg».proof.Proof.Gen.KernelIdeal.Skeleton
import proofs.«402315_j14740327760019_3_alg».proof.Proof.Gen.KernelIdeal.Points
import proofs.«402315_j14740327760019_3_alg».proof.Proof.LibBody
import Idealize.ShloMosaic.Lib.Pipeline.Regions
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem live2 : ∀ (w : Fin cfg2.W) (t : Fin cfg2.N), w ≠ 3 ∨ t.val % 4 = 3 → cfg2.idle w (grid2.coords t) = false := by decide +kernel
theorem idle2_3 : ∀ t : Fin cfg2.N, t.val % 4 ≠ 3 → cfg2.idle 3 (grid2.coords t) = true ∧ (cfg2.win 3).flush t = false := by decide +kernel

abbrev ms2_0 (t : Fin cfg2.N) : Memref sig .tc .vmem S256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .f32 := win2_3.stage (cfg2.slots t 3)
abbrev hs2_3 (t : Fin cfg2.N) : (ms2_3 t).IsWhole := hstage2_3 ((cfg2.slots t 3).cast nbuf2_3)
abbrev scM2_0 : Memref sig .tc .vmem S256x256 .f32 := Memref.whole cc2_scratch0

abbrev oth2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ oth2 (F := F) c) ∗ (∃ r, prngReg c r)) := by
  unfold Pipeline.ΦA; rw [Pipeline.scopedRest_split_of_list spec2 c [cc2_scratch0] (by decide) (by decide)]
  simp only [scM2_0, owns_whole]; rfl

end Cert.KernelIdeal.Gen

end
-- ==== Proof.KI.R2Run.lean ====
import proofs.«402315_j14740327760019_3_alg».proof.Proof.KI.R2Shared

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (c : Dev nD) (i : grid2.Coords) (arg2 : Memref sig .tc .vmem S256x512 .bf16) (harg2 : arg2.IsWhole)
  (arg3 : Memref sig .tc .vmem S512x256 .bf16) (harg3 : arg3.IsWhole) (arg4 : Memref sig .tc .vmem S1x256 .f32) (harg4 : arg4.IsWhole)
  (arg5 : Memref sig .tc .vmem S256x256 .f32) (harg5 : arg5.IsWhole) (arg6 : Memref sig .tc .vmem S256x256 .f32) (harg6 : arg6.IsWhole)
  (x0 : Vec F S256x512 .bf16) (x1 : Vec F S512x256 .bf16) (x2 : Vec F S1x256 .f32)

/-- The body at a grid point: the accumulator, cleared first where the point opens a row of the grid, gains the block product; where the point closes the row the output block is the last payload of it and the bias row, elsewhere as found. -/
theorem run2 (xi3 O : Vec F S256x256 .f32) (xs0 A : Vec F S256x256 .f32)
    (hA : A = k2_pay2 (if cond2_0 i then k2_pay1 else xs0) x0 x1) (hO : O = if cond2_1 i then k2_pay3 A x2 else xi3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare O ∗ owns (c : Thread nD τ) arg6 fullShare A) -∗ K ⟨⟩))
      ⊢ wp frame (wpE (defs₀ (F := F)) Variants.none c none) E (cc2__mm_kernel i arg2 harg2 arg3 harg3 arg4 harg4 arg5 harg5 arg6 harg6) K := by
  subst hA hO
  by_cases hc0 : cond2_0 i <;> by_cases hc1 : cond2_1 i <;>
    (first | rw [if_pos hc0] | rw [if_neg hc0]) <;> (first | rw [if_pos hc1] | rw [if_neg hc1]) <;> (
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; first | (sl_unfold_words; rw [View.read_writes_unit_zero _ _ View.hz2]; simp only [View.readAt_eq_ld, hf0, hf1, hf2, hfs0, View.ld_unit_zero (S := S256x512) View.hz2, View.ld_unit_zero (S := S512x256) View.hz2, View.ld_unit_zero (S := S256x256) View.hz2, View.ld_unit_zero (S := S1x256) View.hz2, View.readCov_cons_unit_zero (S := S256x256) _ View.hz2]) | exact hf3
    iexists _; isplitr; swap; · iexact HS0
    ipureintro; sl_unfold_words; rw [View.read_writes_unit_zero _ _ View.hz2]; simp only [View.readAt_eq_ld, hf0, hf1, hf2, hfs0, View.ld_unit_zero (S := S256x512) View.hz2, View.ld_unit_zero (S := S512x256) View.hz2, View.ld_unit_zero (S := S256x256) View.hz2, View.ld_unit_zero (S := S1x256) View.hz2, View.readCov_cons_unit_zero (S := S256x256) _ View.hz2])

end Cert.KernelIdeal.Gen

end
-- ==== Proof.KI.R2Body.lean ====
import proofs.«402315_j14740327760019_3_alg».proof.Proof.KI.R2Run

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the block product added to the cleared accumulator at the first step of a row of the grid, elsewhere to what the position before left. -/
def accAt2 (c : Dev nD) : (n : ℕ) → n < cfg2.N → Vec F S256x256 .f32
  | 0, hn => k2_pay2 k2_pay1 (iblk2 V c 0 ⟨0, hn⟩) (iblk2 V c 1 ⟨0, hn⟩)
  | n + 1, hn => k2_pay2 (if (n + 1) % 4 = 0 then k2_pay1 else accAt2 c n (Nat.lt_of_succ_lt hn)) (iblk2 V c 0 ⟨n + 1, hn⟩) (iblk2 V c 1 ⟨n + 1, hn⟩)

theorem accAt2_first (c : Dev nD) (t : Fin cfg2.N) (h0 : t.val % 4 = 0) :
    accAt2 V c t.val t.isLt = k2_pay2 k2_pay1 (iblk2 V c 0 t) (iblk2 V c 1 t) := by
  obtain ⟨n, hn⟩ := t
  cases n with
  | zero => rfl
  | succ n => unfold accAt2; rw [if_pos h0]

theorem accAt2_next (c : Dev nD) (t : Fin cfg2.N) (h0 : ¬t.val % 4 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => rw [accAt2, if_neg h0]; rfl

/-- The same step from any contents that are the position before's where there is one: the first point clears them. -/
theorem accAt2_step (c : Dev nD) (t : Fin cfg2.N) (xs0 : Vec F S256x256 .f32)
    (h : ∀ hz : t.val ≠ 0, xs0 = accAt2 V c (t.val - 1) (by omega)) :
    accAt2 V c t.val t.isLt = k2_pay2 (if cond2_0 (grid2.coords t) then k2_pay1 else xs0) (iblk2 V c 0 t) (iblk2 V c 1 t) := by
  by_cases h0 : t.val % 4 = 0
  · rw [if_pos ((hcond2_0 t).mpr h0), accAt2_first V c t h0]
  · rw [if_neg fun hc => h0 ((hcond2_0 t).mp hc), accAt2_next V c t h0, h fun e => h0 (by rw [e])]

/-- The output block and the accumulator after position `n`. -/
def outsAt2 (c : Dev nD) (n : ℕ) (hn : n < cfg2.N) : Vec F S256x256 .f32 × Vec F S256x256 .f32 :=
  (k2_pay3 (accAt2 V c n hn) (iblk2 V c 2 ⟨n, hn⟩), accAt2 V c n hn)

def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ oth2 (F := F) c) ∗ (∃ r, prngReg c r))

theorem PhiS2_open (c : Dev nD) (n : ℕ) (h : n ≤ cfg2.N) :
    PhiS2 V c n h ⊢ iprop(∃ xs0, ⌜∀ hz : n ≠ 0, xs0 = accAt2 V c (n - 1) (by omega)⌝ ∗ owns (c : Thread nD τ) scM2_0 fullShare xs0 ∗ oth2 (F := F) c ∗ (∃ r, prngReg c r)) := by
  cases n with
  | zero =>
    rw [PhiS2, PhiA2_eq]
    iintro ⟨⟨⟨%d, HS0⟩, Hoth⟩, Hg⟩
    iexists d; isplitr; · ipureintro; exact fun hz => absurd rfl hz
    isplitl [HS0]; · iexact HS0
    isplitl [Hoth]; · iexact Hoth
    iexact Hg
  | succ n =>
    rw [PhiS2]
    iintro ⟨⟨HS0, Hoth⟩, Hg⟩
    iexists accAt2 V c n h; isplitr; · ipureintro; exact fun _ => rfl
    isplitl [HS0]; · iexact HS0
    isplitl [Hoth]; · iexact Hoth
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
      ⊢ wp frame (wpE (defs₀ (F := F)) Variants.none c none) Set.univ (bodyAt2 t) (fun _ =>
        iprop((dat2 V c).Φ t.succ ∗ (dat2 V c).owesAt () t.succ ∗ (dat2 V c).leavesExact 0 t ∗ (dat2 V c).leavesExact 1 t
          ∗ (dat2 V c).leavesExact 2 t ∗ (dat2 V c).leavesExact 3 t)) := by
  unfold bodyAt2
  simp only [before2_0, before2_1, before2_2]
  rw [show (dat2 V c).owesAt () t.succ = (dat2 V c).owesAt () t.castSucc from rfl,
    show (dat2 V c).Φ t.succ = iprop(iprop(owns (c : Thread nD τ) scM2_0 fullShare (accAt2 V c t.val t.isLt) ∗ oth2 (F := F) c) ∗ (∃ r, prngReg c r)) from rfl,
    show (dat2 V c).Φ t.castSucc = PhiS2 V c t.val (Nat.le_of_lt t.isLt) from rfl,
    (dat2 V c).leavesExact_live 0 t (live2 0 t (.inl (by decide))), (dat2 V c).leavesExact_live 1 t (live2 1 t (.inl (by decide))),
    (dat2 V c).leavesExact_live 2 t (live2 2 t (.inl (by decide)))]
  have key : ∀ d3, ∃ O, O = (if cond2_1 (grid2.coords t) then k2_pay3 (accAt2 V c t.val t.isLt) (iblk2 V c 2 t) else (dat2 V c).before 3 t d3)
      ∧ (owns (c : Thread nD τ) (ms2_3 t) fullShare O ⊢ (dat2 V c).leavesExact 3 t) := fun d3 => by
    by_cases h1 : t.val % 4 = 3
    · exact ⟨(dat2 V c).after 3 t, (if_pos ((hcond2_1 t).mpr h1)).symm, by
        rw [(dat2 V c).leavesExact_live 3 t (live2 3 t (.inr h1))]⟩
    · exact ⟨_, (if_neg fun h => h1 ((hcond2_1 t).mp h)).symm, by
        rw [Dat.leavesExact_idle (dat2 V c) 3 t (idle2_3 t h1).1 (idle2_3 t h1).2]; iintro H; iexists _; iexact H⟩
  iintro ⟨HΦ, Ho, ⟨%d0, H0⟩, ⟨%d1, H1⟩, ⟨%d2, H2⟩, ⟨%d3, H3⟩⟩
  obtain ⟨O, hO, hL⟩ := key d3
  ihave HΦ := (PhiS2_open V c _ _) $$ HΦ
  icases HΦ with ⟨%xs0, %hxs, HS0, Hoth, Hg⟩
  iapply (run2 c (grid2.coords t) _ (hs2_0 t) _ (hs2_1 t) _ (hs2_2 t) _ (hs2_3 t) _ (Memref.isWhole_whole _) (iblk2 V c 0 t) (iblk2 V c 1 t) (iblk2 V c 2 t)
    _ O xs0 _ (accAt2_step V c t xs0 hxs) hO Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hoth Hg]
  · isplitl [HS0 Hoth]
    · isplitl [HS0]; · iexact HS0
      iexact Hoth
    iexact Hg
  isplitl [Ho]; · iexact Ho
  isplitl [H0]; · iexact H0
  isplitl [H1]; · iexact H1
  isplitl [H2]; · iexact H2
  iapply hL; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]
  refine (PhiS2_open V c cfg2.N le_rfl).trans ?_
  iintro ⟨%xs0, -, HS0, Hoth, Hg⟩
  isplitl [HS0 Hoth]
  · isplitl [HS0]; · iexists _; iexact HS0
    iexact Hoth
  iexact Hg

end Cert.KernelIdeal.Gen

end
-- ==== Proof.KI.Segs.lean ====
import proofs.«402315_j14740327760019_3_alg».proof.Proof.Gen.KernelIdeal.Regions
import proofs.«402315_j14740327760019_3_alg».proof.Proof.KI.R0Body
import proofs.«402315_j14740327760019_3_alg».proof.Proof.KI.R1Body
import proofs.«402315_j14740327760019_3_alg».proof.Proof.KI.R2Body
import Idealize.ShloMosaic.Lib.Pipeline.FrameSuffix
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat RegionSeg)

variable {F : FTy → Type} [FloatOps F]

local notation "𝕄" => MT nD τ sig Unit (Elt F) ℕ (UR sig nD τ) ℕ

section Left

variable {cfg : Pipeline.Cfg sig Λ₀} {c : Dev nD} (V : Valuation τ sig (Elt F)) (d : Dat τ (Elt F) Unit ℕ (UR sig nD τ) ℕ cfg c)
  (hinj : Function.Injective (Pipeline.arrRef cfg.spec))

/-- The buffer contents after a region entered at `V`: its arrays at their final values, everything else unchanged. -/
abbrev left : Valuation τ sig (Elt F) := Pipeline.withArrays cfg.spec c V fun w => d.arrAt w cfg.N

include hinj in
theorem left_arr (w : Fin cfg.W) : left V d (Pipeline.arrRef cfg.spec w) = d.arrAt w cfg.N :=
  Pipeline.withArrays_arr _ hinj c _ _ w

include hinj in
/-- An input array is never written, so a region whose windows are inputs or its one result buffer `o` changes `o` alone. -/
theorem update_left (o : Ref sig .tc) (ho : ∀ w, (cfg.win w).isOut = false ∨ Pipeline.arrRef cfg.spec w = o)
    (hA : ∀ w, d.A w = V (Pipeline.arrRef cfg.spec w)) : Function.update V o (left V d o) = left V d :=
  Function.update_eq_iff.mpr ⟨rfl, fun b hb => by
    by_cases h : ∃ w, Proc.devRef .tc (Pipeline.arrRef cfg.spec w) = b
    · obtain ⟨w, rfl⟩ := h
      rcases ho w with hin | hw
      · exact ((d.arrAt_in w hin _).trans (hA w)).symm.trans (left_arr V d hinj w).symm
      · exact absurd (congrArg (Proc.devRef .tc) hw) hb
    · exact (show left V d b = V b from dif_neg h).symm⟩

end Left

variable (m : (ℓ : Loc nD τ sig) → Buf (Elt F) ℓ)

abbrev En0 : (c : Dev nD) → (b : Ref sig .tc) → Buf (Elt F) ((c : Thread nD τ).loc b) := fun c b => V9 m c b
def W10 (c : Dev nD) : Valuation τ sig (Elt F) := left (V9 m c) (dat0 (En0 m) c)

/-- Region 1 is entered at the contents before item 17 with region 0's result in place; -/
abbrev X17 (c : Dev nD) : Valuation τ sig (Elt F) := V17 m (fun _ r c => W10 m c r) c
abbrev En1 : (c : Dev nD) → (b : Ref sig .tc) → Buf (Elt F) ((c : Thread nD τ).loc b) := fun c b => X17 m c b
def W18 (c : Dev nD) : Valuation τ sig (Elt F) := left (X17 m c) (dat1 (En1 m) c)

/-- region 2 at those before item 25 with the results of regions 0 and 1 in place. -/
abbrev X25 (c : Dev nD) : Valuation τ sig (Elt F) := V25 m (fun n r c => if n ≤ 10 then W10 m c r else W18 m c r) c
abbrev En2 : (c : Dev nD) → (b : Ref sig .tc) → Buf (Elt F) ((c : Thread nD τ).loc b) := fun c b => X25 m c b
def W26 (c : Dev nD) : Valuation τ sig (Elt F) := left (X25 m c) (dat2 (En2 m) c)

/-- What the regions leave, as the unknowns of the valuations between items. -/
def outsF : Outs (F := F) := fun n r c => if n ≤ 10 then W10 m c r else if n ≤ 18 then W18 m c r else W26 m c r

theorem V17_outsF (c : Dev nD) : V17 m (outsF m) c = X17 m c := rfl
theorem V25_outsF (c : Dev nD) : V25 m (outsF m) c = X25 m c := rfl

theorem outsF_main_v22 (c : Dev nD) : outsF m 10 main_v22 c = (dat0 (En0 m) c).arrAt 3 cfg0.N :=
  left_arr (V9 m c) _ launch0.win.arr_inj 3
theorem outsF_main_v43 (c : Dev nD) : outsF m 18 main_v43 c = (dat1 (En1 m) c).arrAt 3 cfg1.N :=
  left_arr (X17 m c) _ launch1.win.arr_inj 3
theorem outsF_main_v64 (c : Dev nD) : outsF m 26 main_v64 c = (dat2 (En2 m) c).arrAt 3 cfg2.N :=
  left_arr (X25 m c) _ launch2.win.arr_inj 3

def pdats : (p : Fin 3) → (c : Dev nD) → Dat τ (Elt F) Unit ℕ (UR sig nD τ) ℕ (cfgs p) c
  | ⟨0, _⟩ => dat0 (En0 m)
  | ⟨1, _⟩ => dat1 (En1 m)
  | ⟨2, _⟩ => dat2 (En2 m)

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Region

variable (pd : (p : Fin 3) → (c : Dev nD) → Dat τ (Elt F) Unit ℕ (UR sig nD τ) ℕ (cfgs p) c)

def regOf (p : Fin 3) (lf : Pipeline.LaunchFacts (nD := nD) (τ := τ) cfgs p) (V : Dev nD → Valuation τ sig (Elt F)) (o : Ref sig .tc)
    (ho : ∀ w, ((cfgs p).win w).isOut = false ∨ Pipeline.arrRef (cfgs p).spec w = o)
    (hq : ∀ c w, (pd p c).q w = fullShare) (howed : ∀ c t, (pd p c).owed t = 0) (hrec : ∀ c x, x ∈ (pd p c).recorded 0)
    (hA : ∀ c w, (pd p c).A w = V c (Pipeline.arrRef (cfgs p).spec w))
    (hbody : ∀ c, Pipeline.BodyObligation (pd p c) defs₀ Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    RegionSeg pcfgs adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (Function.update (V c) o (left (V c) (pd p c) o)) ∗ R c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) pcfgs adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    rw [update_left (V c) (pd p c) lf.win.arr_inj o ho (hA c)]
    have hjoin := Pipeline.unscopedBufs_of_arrays (p := p) pcfgs adm lf.win lf.arr_whole c pd ((pd p c).share_full (hq c))
      (fun b => V c b) (fun b => left (V c) (pd p c) b) ((pd p c).arrAt · (cfgs p).N) (fun w => (left_arr (V c) (pd p c) lf.win.arr_inj w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Region

def reg0 : RegionSeg pcfgs adm (pdats m) () defs₀ Variants.none L lv 0 :=
  regOf (pdats m) 0 launch0 (V9 m) main_v22 (by decide) (fun _ _ => rfl) (fun _ _ => rfl) (fun _ _ => trivial) (A_eq0 (En0 m)) (body_obligation0 (En0 m))
    (hin0 (En0 m)) (hout0 (En0 m))
def reg1 : RegionSeg pcfgs adm (pdats m) () defs₀ Variants.none L lv 1 :=
  regOf (pdats m) 1 launch1 (X17 m) main_v43 (by decide) (fun _ _ => rfl) (fun _ _ => rfl) (fun _ _ => trivial) (A_eq1 (En1 m)) (body_obligation1 (En1 m))
    (hin1 (En1 m)) (hout1 (En1 m))
def reg2 : RegionSeg pcfgs adm (pdats m) () defs₀ Variants.none L lv 2 :=
  regOf (pdats m) 2 launch2 (X25 m) main_v64 (by decide) (fun _ _ => rfl) (fun _ _ => rfl) (fun _ _ => trivial) (A_eq2 (En2 m)) (body_obligation2 (En2 m))
    (hin2 (En2 m)) (hout2 (En2 m))

end Cert.KernelIdeal.Gen

end
-- ==== Proof.KI.RunAll.lean ====
import proofs.«402315_j14740327760019_3_alg».proof.Proof.KI.Segs

noncomputable section

namespace Cert.KernelIdeal.Gen

open Idealize.ShloMosaic Idealize.ShloMosaic.TcCoe
open Idealize.SL Idealize.SL.BI
open scoped Idealize.SL.BI
open Idealize.SL.BI.BIBase Idealize.SL.BI.Laws Idealize.SL.ProofMode
open Idealize.ShloMosaic.Rounds
open Idealize.ShloMosaic.Pipeline (Seg)

variable {F : FTy → Type} [FloatOps F]

local notation "𝕄" => MT nD τ sig Unit (Elt F) ℕ (UR sig nD τ) ℕ

variable (m : (ℓ : Loc nD τ sig) → Buf (Elt F) ℓ)

/-- The run ends with the result buffer at the last contents and every argument as launched. -/
theorem run_value (ρ : Dev nD → PrngReg) : θ_run defs (onTc (τ := τ) (main (F := F))) ⟨m, fun _ => 0, ρ⟩ (fun r => ∀ c : Dev nD,
      r.2.mem ((c.tc : Thread nD τ).loc main_v65) = V27 m (outsF m) c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev pcfgs adm (pdats m) () cellOf_inj emb₁ defs₀ Variants.none L lv m ρ main
    (segs m (outsF m) Variants.none L lv (fun _ => R) () (pdats m) (reg0 m) (reg1 m) (reg2 m))
    (fun c Q' => by rw [main_chain c, Seg.run_eq_chain]; exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V27 m (outsF m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl sep_elim_right⟩)
    (hinit := Pipeline.initEach L lv fun c => ?_)
    (QY := fun c s => ∀ b ∈ Pipeline.ucRefs τ sig, s.mem (((c : Thread nD τ)).1, b) = V27 m (outsF m) c b)
    (hfin := fun c s' => ?_)
    (hQ := fun s h c => ⟨h c _ (mem_uc main_v65 (by decide)),
      (h c _ (mem_uc main_arg0 (by decide))).trans (V27_main_arg0 m (outsF m) c),
      (h c _ (mem_uc main_arg1 (by decide))).trans (V27_main_arg1 m (outsF m) c),
      (h c _ (mem_uc main_arg2 (by decide))).trans (V27_main_arg2 m (outsF m) c),
      (h c _ (mem_uc main_arg3 (by decide))).trans (V27_main_arg3 m (outsF m) c),
      (h c _ (mem_uc main_arg4 (by decide))).trans (V27_main_arg4 m (outsF m) c),
      (h c _ (mem_uc main_arg5 (by decide))).trans (V27_main_arg5 m (outsF m) c),
      (h c _ (mem_uc main_arg6 (by decide))).trans (V27_main_arg6 m (outsF m) c),
      (h c _ (mem_uc main_arg7 (by decide))).trans (V27_main_arg7 m (outsF m) c),
      (h c _ (mem_uc main_arg8 (by decide))).trans (V27_main_arg8 m (outsF m) c),
      (h c _ (mem_uc main_arg9 (by decide))).trans (V27_main_arg9 m (outsF m) c),
      (h c _ (mem_uc main_arg10 (by decide))).trans (V27_main_arg10 m (outsF m) c),
      (h c _ (mem_uc main_arg11 (by decide))).trans (V27_main_arg11 m (outsF m) c),
      (h c _ (mem_uc main_arg12 (by decide))).trans (V27_main_arg12 m (outsF m) c)⟩)
  · rw [← Pipeline.unscopedBufs_held]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V27 m (outsF m) c) s')
    isplitl [Hh] <;> iassumption

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => (h c).2) (run_value m ρ)

end Cert.KernelIdeal.Gen

end
-- ==== Proof.LibScatterAddPairs.lean ====
import proofs.«402315_j14740327760019_3_alg».proof.Proof.LibScatterAddRows

noncomputable section

namespace Idealize.ShloMosaic

open ValueIdx

abbrev ScatterDims.pairs {K N P : Nat}
    (wf : ScatterDims.WF (⟨2, ![K, N]⟩ : Shape) ⟨2, ![P, 2]⟩ ⟨1, ![P]⟩ [] [0, 1] [0, 1] 1) :
    ScatterDims (⟨2, ![K, N]⟩ : Shape) ⟨2, ![P, 2]⟩ ⟨1, ![P]⟩ :=
  ⟨[], [0, 1], [0, 1], 1, wf⟩

section PairsAxes
variable {K N P w : Nat}
    (wf : ScatterDims.WF (⟨2, ![K, N]⟩ : Shape) ⟨2, ![P, 2]⟩ ⟨1, ![P]⟩ [] [0, 1] [0, 1] 1)
    (idx : IVec (⟨2, ![P, 2]⟩ : Shape) w) (p : Fin P)

theorem ScatterDims.pairs_sKept : (ScatterDims.pairs wf).sKept = [] := by
  show (List.finRange 2).filter (fun a => a ∉ [(0 : Fin 2), 1]) = []
  decide

theorem ScatterDims.pairs_window (a : Fin 2) : (ScatterDims.pairs wf).window (ix1 p) a = 0 := by
  unfold ScatterDims.window
  rw [dif_neg (by rw [ScatterDims.pairs_sKept]; exact List.not_mem_nil)]

theorem ScatterDims.pairs_siIdx (c : Fin (ScatterDims.pairs wf).scatterDimsToOperandDims.length) (q : Fin 2)
    (hq : c.val = q.val) : (ScatterDims.pairs wf).siIdx (ix1 p) c = ix2 p q := by
  funext b
  match b with
  | ⟨0, _⟩ => rfl
  | ⟨1, _⟩ => exact Fin.ext hq

theorem ScatterDims.pairs_start0 :
    (ScatterDims.pairs wf).start (ix1 p) idx 0 = (idx (ix2 p (0 : Fin 2))).toInt := by
  unfold ScatterDims.start
  rw [dif_pos (show (0 : Fin 2) ∈ [(0 : Fin 2), 1] by decide), ScatterDims.pairs_siIdx wf p _ 0 (show List.idxOf (0 : Fin 2) [(0 : Fin 2), 1] = 0 by decide)]

theorem ScatterDims.pairs_start1 :
    (ScatterDims.pairs wf).start (ix1 p) idx 1 = (idx (ix2 p (1 : Fin 2))).toInt := by
  unfold ScatterDims.start
  rw [dif_pos (show (1 : Fin 2) ∈ [(0 : Fin 2), 1] by decide), ScatterDims.pairs_siIdx wf p _ 1 (show List.idxOf (1 : Fin 2) [(0 : Fin 2), 1] = 1 by decide)]

end PairsAxes

theorem ScatterDims.pairs_resultIdx?_eq_some_iff {K N P w : Nat}
    (wf : ScatterDims.WF (⟨2, ![K, N]⟩ : Shape) ⟨2, ![P, 2]⟩ ⟨1, ![P]⟩ [] [0, 1] [0, 1] 1)
    (idx : IVec (⟨2, ![P, 2]⟩ : Shape) w) (p : Fin P) (k : Fin K) (n : Fin N) :
    (ScatterDims.pairs wf).resultIdx? (ix1 p) idx = some (ix2 k n)
      ↔ (idx (ix2 p (0 : Fin 2))).toInt = (k.val : Int) ∧ (idx (ix2 p (1 : Fin 2))).toInt = (n.val : Int) := by
  refine (ScatterDims.resultIdx?_eq_some_iff _ _ _ _).trans (Fin.forall_fin_two.trans ?_)
  rw [ScatterDims.pairs_start0, ScatterDims.pairs_start1, ScatterDims.pairs_window, ScatterDims.pairs_window]
  exact and_congr (by rw [Nat.cast_zero, add_zero]) (by rw [Nat.cast_zero, add_zero])

/-- Entry (k, n) gains every update whose index pair, read signed, is (k, n). -/
theorem Ideal.hostScatterAdd_pairs_apply {K N P w : Nat}
    (wf : ScatterDims.WF (⟨2, ![K, N]⟩ : Shape) ⟨2, ![P, 2]⟩ ⟨1, ![P]⟩ [] [0, 1] [0, 1] 1)
    (x : (⟨2, ![K, N]⟩ : Shape).Idx → EReal) (idx : IVec (⟨2, ![P, 2]⟩ : Shape) w)
    (upd : (⟨1, ![P]⟩ : Shape).Idx → EReal) (k : Fin K) (n : Fin N) :
    Ideal.hostScatterAdd (ScatterDims.pairs wf) x idx upd (ix2 k n)
      = x (ix2 k n) + ∑ p : Fin P,
          if (idx (ix2 p (0 : Fin 2))).toInt = (k.val : Int) ∧ (idx (ix2 p (1 : Fin 2))).toInt = (n.val : Int)
          then upd (ix1 p) else 0 := by
  unfold Ideal.hostScatterAdd
  congr 1
  rw [Finset.sum_filter]
  exact (Fintype.sum_equiv (⟨ix1, fun i => i 0, fun _ => rfl, fun i => (eq_ix1 i).symm⟩ : Fin P ≃ (⟨1, ![P]⟩ : Shape).Idx) _ _ fun p =>
    (if_congr (ScatterDims.pairs_resultIdx?_eq_some_iff wf idx p k n) rfl rfl).symm).symm

end Idealize.ShloMosaic

end
-- ==== Proof.KI.HostGeneric.lean ====
import proofs.«402315_j14740327760019_3_alg».proof.Proof.Spec
import proofs.«402315_j14740327760019_3_alg».proof.Proof.LibScatterAddPairs
import Idealize.ShloMosaic.Lib.ValueLayout
import Idealize.ShloMosaic.Lib.KernelVsHost
import Idealize.ShloMosaic.Lib.IdealHost
import Idealize.ShloMosaic.Lib.Affine

noncomputable section

namespace Cert.KI

open Idealize.ShloMosaic Idealize.ShloMosaic.ValueIdx

/-- A word whose signed reading lies in [lo, hi] is left alone by the clip to [lo, hi]. -/
theorem clip_word (lo hi w : BitVec 32) (h0 : lo.toInt ≤ w.toInt) (h1 : w.toInt ≤ hi.toInt) :
    IntOp.minsi hi (IntOp.maxsi lo w) = w := by
  have e1 : IntOp.maxsi lo w = w := by
    unfold IntOp.maxsi
    rw [if_neg]
    rw [BitVec.slt_iff_toInt_lt]; omega
  rw [e1]
  unfold IntOp.minsi
  rw [if_neg]
  rw [BitVec.slt_iff_toInt_lt]; omega

/-- A word that is not below z is left alone by "add k when below z". -/
theorem wrap_word (z k w : BitVec 32) (h0 : z.toInt ≤ w.toInt) :
    Scalar.select (IntOp.cmpi .slt w z) (IntOp.addi w k) w = w := by
  unfold Scalar.select
  rw [if_neg]
  intro hh
  have := IntOp.cmpi_slt.mp hh
  omega

/-- The clip of an index vector between two broadcast constants. -/
def clipv {s : Shape} (h : (⟨0, ![]⟩ : Shape).BroadcastsInDim s ![]) (lo hi : BitVec 32) (w : IVec s 32) : IVec s 32 :=
  minsi (broadcastInDim s ![] h (constantI ⟨0, ![]⟩ 32 hi)) (maxsi (broadcastInDim s ![] h (constantI ⟨0, ![]⟩ 32 lo)) w)

/-- The wrap of negative indices by the extent k. -/
def wrapv {s : Shape} (h : (⟨0, ![]⟩ : Shape).BroadcastsInDim s ![]) (k : BitVec 32) (w : IVec s 32) : IVec s 32 :=
  select (cmpi .slt w (broadcastInDim s ![] h (constantI ⟨0, ![]⟩ 32 0#32)))
    (addi w (broadcastInDim s ![] h (constantI ⟨0, ![]⟩ 32 k))) w

theorem wrapv_clipv_apply {s : Shape} (h : (⟨0, ![]⟩ : Shape).BroadcastsInDim s ![]) (hi k : BitVec 32) (w : IVec s 32)
    (i : s.Idx) (h0 : 0 ≤ (w i).toInt) (h1 : (w i).toInt ≤ hi.toInt) :
    wrapv h k (clipv h 0#32 hi w) i = w i := by
  have ec : clipv h 0#32 hi w i = w i := by
    show IntOp.minsi (broadcastInDim s ![] h (constantI ⟨0, ![]⟩ 32 hi) i)
      (IntOp.maxsi (broadcastInDim s ![] h (constantI ⟨0, ![]⟩ 32 0#32) i) (w i)) = w i
    rw [broadcastInDim_scalar_apply, broadcastInDim_scalar_apply, constantI_apply, constantI_apply]
    exact clip_word _ _ _ (by simpa using h0) h1
  show Scalar.select (IntOp.cmpi .slt (clipv h 0#32 hi w i) (broadcastInDim s ![] h (constantI ⟨0, ![]⟩ 32 0#32) i))
    (IntOp.addi (clipv h 0#32 hi w i) (broadcastInDim s ![] h (constantI ⟨0, ![]⟩ 32 k) i)) (clipv h 0#32 hi w i) = w i
  rw [ec, broadcastInDim_scalar_apply, constantI_apply]
  exact wrap_word _ _ _ (by simpa using h0)

variable {E : ℕ} (hb : (⟨1, ![E]⟩ : Shape).BroadcastsInDim ⟨2, ![E, 1]⟩ ![0])
  (hc : Shape.Concatenates [(⟨2, ![E, 1]⟩ : Shape), ⟨2, ![E, 1]⟩] ⟨2, ![E, 2]⟩ 1) (a b : IVec (⟨1, ![E]⟩ : Shape) 32) (p : Fin E)

/-- Two vectors of E words set side by side as the columns of an E × 2 array. -/
def idxPair : IVec (⟨2, ![E, 2]⟩ : Shape) 32 :=
  concatenate ⟨2, ![E, 2]⟩ 1
    [⟨⟨2, ![E, 1]⟩, broadcastInDim ⟨2, ![E, 1]⟩ ![0] hb a⟩, ⟨⟨2, ![E, 1]⟩, broadcastInDim ⟨2, ![E, 1]⟩ ![0] hb b⟩] hc

theorem column_apply {α : Type} (v : (⟨1, ![E]⟩ : Shape).Idx → α) (q : Fin 1) :
    broadcastInDim ⟨2, ![E, 1]⟩ ![0] hb v (ix2 p q) = v (ix1 p) := by
  refine broadcastInDim_apply ![0] hb v (ix2 p q) (ix1 p) (fun x => ?_)
  match x with
  | ⟨0, _⟩ =>
    show p.val = if E = 1 then 0 else p.val
    split
    · omega
    · rfl

theorem idxPair_apply0 : idxPair hb hc a b (ix2 p (0 : Fin 2)) = a (ix1 p) := by
  unfold idxPair
  rw [concatenate_pair_apply_left 1 _ _ hc (ix2 p (0 : Fin 2)) rfl (ix2 p (0 : Fin 1)) (fun x => by
    match x with
    | ⟨0, _⟩ => rfl
    | ⟨1, _⟩ => rfl)]
  exact column_apply hb p a 0

theorem idxPair_apply1 : idxPair hb hc a b (ix2 p (1 : Fin 2)) = b (ix1 p) := by
  unfold idxPair
  rw [concatenate_pair_apply_right 1 _ _ hc (ix2 p (1 : Fin 2)) rfl rfl (ix2 p (0 : Fin 1)) (fun x hx => by
    match x with
    | ⟨0, _⟩ => rfl
    | ⟨1, _⟩ => exact absurd rfl hx) rfl]
  exact column_apply hb p b 0

variable {Kp Np nIn nOut : ℕ} (wf : ScatterDims.WF (⟨2, ![Kp, Np]⟩ : Shape) ⟨2, ![E, 2]⟩ ⟨1, ![E]⟩ [] [0, 1] [0, 1] 1)
  (rows cols : (⟨1, ![E]⟩ : Shape).Idx → BitVec 32) (vals : (⟨1, ![E]⟩ : Shape).Idx → EReal)
  (hr : Spec.InRange rows nOut) (hcl : Spec.InRange cols nIn) (k : Fin Kp) (n : Fin Np)

/-- Zeros with each edge's value added at its (column, row) pair: the dense transposed table inside the real extents, zero in the padding, where no edge lands. -/
theorem denseTable_apply (x : (⟨2, ![Kp, Np]⟩ : Shape).Idx → EReal) (hx : ∀ i, x i = 0) (idx : IVec (⟨2, ![E, 2]⟩ : Shape) 32)
    (h0 : ∀ p, idx (ix2 p (0 : Fin 2)) = cols (ix1 p)) (h1 : ∀ p, idx (ix2 p (1 : Fin 2)) = rows (ix1 p)) :
    Ideal.hostScatterAdd (ScatterDims.pairs wf) x idx vals (ix2 k n)
      = if h : k.val < nIn ∧ n.val < nOut
        then Spec.dense (Spec.dec hr) (Spec.dec hcl) (Spec.arr1 vals) ⟨k.val, h.1⟩ ⟨n.val, h.2⟩ else 0 := by
  rw [Ideal.hostScatterAdd_pairs_apply, hx, zero_add]
  by_cases h : k.val < nIn ∧ n.val < nOut
  · rw [dif_pos h]
    unfold Spec.dense
    apply Finset.sum_congr rfl
    intro p _
    rw [h0, h1]
    have dc := Spec.dec_val hcl p
    have dr := Spec.dec_val hr p
    have hiff : ((cols (ix1 p)).toInt = (k.val : Int) ∧ (rows (ix1 p)).toInt = (n.val : Int))
        ↔ (Spec.dec hcl p = ⟨k.val, h.1⟩ ∧ Spec.dec hr p = ⟨n.val, h.2⟩) := by
      constructor
      · rintro ⟨ha, hb⟩
        exact ⟨Fin.ext (by show (Spec.dec hcl p).val = k.val; omega), Fin.ext (by show (Spec.dec hr p).val = n.val; omega)⟩
      · rintro ⟨ha, hb⟩
        have ha' : (Spec.dec hcl p).val = k.val := congrArg Fin.val ha
        have hb' : (Spec.dec hr p).val = n.val := congrArg Fin.val hb
        constructor <;> omega
    by_cases hA : (cols (ix1 p)).toInt = (k.val : Int) ∧ (rows (ix1 p)).toInt = (n.val : Int)
    · rw [if_pos hA, if_pos (hiff.mp hA)]
    · rw [if_neg hA, if_neg (fun hB => hA (hiff.mpr hB))]
  · rw [dif_neg h]
    apply Finset.sum_eq_zero
    intro p _
    rw [h0, h1, if_neg]
    rintro ⟨ha, hb⟩
    have := hr p
    have := hcl p
    omega

/-- A matrix padded on the right of its second axis reads the matrix inside and the padding value outside. -/
theorem pad2_apply {a b b' hi : ℕ} {α : Type} (x : (⟨2, ![a, b]⟩ : Shape).Idx → α) (v : (⟨0, ![]⟩ : Shape).Idx → α)
    (h : (⟨2, ![a, b]⟩ : Shape).Pads ![0, 0] ![0, hi] ![0, 0] ⟨2, ![a, b']⟩) (hu : 0 < (⟨0, ![]⟩ : Shape).numel)
    (p : Fin a) (k : Fin b') :
    pad ⟨2, ![a, b']⟩ ![0, 0] ![0, hi] ![0, 0] x v h hu (ix2 p k)
      = if hk : k.val < b then x (ix2 p ⟨k.val, hk⟩) else v ix0 := by
  by_cases hk : k.val < b
  · rw [dif_pos hk]
    refine pad_apply_of_inside _ _ _ x v h hu (ix2 p k) (ix2 p ⟨k.val, hk⟩) (fun ax => ?_)
    match ax with
    | ⟨0, _⟩ => show p.val = 0 + p.val * (0 + 1); omega
    | ⟨1, _⟩ => show k.val = 0 + k.val * (0 + 1); omega
  · rw [dif_neg hk]
    rw [pad_apply_of_not_inside _ _ _ x v h hu (ix2 p k) 1 (by
      show ¬(0 ≤ k.val ∧ (k.val - 0) % (0 + 1) = 0 ∧ (k.val - 0) / (0 + 1) < b)
      intro hh; apply hk; have := hh.2.2; omega)]
    exact congrArg v (eq_ix0 _)

/-- A vector padded on the right reads the vector inside and the padding value outside. -/
theorem pad1_apply {b b' hi : ℕ} {α : Type} (x : (⟨1, ![b]⟩ : Shape).Idx → α) (v : (⟨0, ![]⟩ : Shape).Idx → α)
    (h : (⟨1, ![b]⟩ : Shape).Pads ![0] ![hi] ![0] ⟨1, ![b']⟩) (hu : 0 < (⟨0, ![]⟩ : Shape).numel) (k : Fin b') :
    pad ⟨1, ![b']⟩ ![0] ![hi] ![0] x v h hu (ix1 k) = if hk : k.val < b then x (ix1 ⟨k.val, hk⟩) else v ix0 := by
  by_cases hk : k.val < b
  · rw [dif_pos hk]
    refine pad_apply_of_inside _ _ _ x v h hu (ix1 k) (ix1 ⟨k.val, hk⟩) (fun ax => ?_)
    match ax with
    | ⟨0, _⟩ => show k.val = 0 + k.val * (0 + 1); omega
  · rw [dif_neg hk]
    rw [pad_apply_of_not_inside _ _ _ x v h hu (ix1 k) 0 (by
      show ¬(0 ≤ k.val ∧ (k.val - 0) % (0 + 1) = 0 ∧ (k.val - 0) / (0 + 1) < b)
      intro hh; apply hk; have := hh.2.2; omega)]
    exact congrArg v (eq_ix0 _)

theorem sitofp_zero_apply (φ : FTy) (i : (⟨0, ![]⟩ : Shape).Idx) :
    (sitofp φ (constantI ⟨0, ![]⟩ 32 0#32) : FVec Ideal ⟨0, ![]⟩ φ) i = 0 := by
  show (((0#32 : BitVec 32).toInt : ℝ) : EReal) = 0
  simp

theorem padInput_apply {a b b' hi : ℕ} (x : (⟨2, ![a, b]⟩ : Shape).Idx → EReal)
    (h : (⟨2, ![a, b]⟩ : Shape).Pads ![0, 0] ![0, hi] ![0, 0] ⟨2, ![a, b']⟩) (hu : 0 < (⟨0, ![]⟩ : Shape).numel)
    (hlt : FTy.bits .bf16 < FTy.bits .f32) (p : Fin a) (k : Fin b') :
    pad ⟨2, ![a, b']⟩ ![0, 0] ![0, hi] ![0, 0] (truncf (F := Ideal) .bf16 (x : FVec Ideal ⟨2, ![a, b]⟩ .f32) hlt)
        (sitofp (F := Ideal) .bf16 (constantI ⟨0, ![]⟩ 32 0#32)) h hu (ix2 p k)
      = if hk : k.val < b then x (ix2 p ⟨k.val, hk⟩) else 0 := by
  rw [pad2_apply]
  by_cases hk : k.val < b
  · rw [dif_pos hk, dif_pos hk]; rfl
  · rw [dif_neg hk, dif_neg hk]; exact sitofp_zero_apply .bf16 ix0

theorem padBias_apply {b b' hi : ℕ} (x : (⟨1, ![b]⟩ : Shape).Idx → EReal)
    (h : (⟨1, ![b]⟩ : Shape).Pads ![0] ![hi] ![0] ⟨1, ![b']⟩) (hu : 0 < (⟨0, ![]⟩ : Shape).numel)
    (hs : (⟨1, ![b']⟩ : Shape).ShapeCasts ⟨2, ![1, b']⟩) (u : Fin 1) (n : Fin b') :
    shapeCast ⟨2, ![1, b']⟩ (pad ⟨1, ![b']⟩ ![0] ![hi] ![0] (x : FVec Ideal ⟨1, ![b]⟩ .f32)
        (sitofp (F := Ideal) .f32 (constantI ⟨0, ![]⟩ 32 0#32)) h hu) hs (ix2 u n)
      = if hn : n.val < b then x (ix1 ⟨n.val, hn⟩) else 0 := by
  rw [shapeCast_a_1a_apply, pad1_apply]
  by_cases hn : n.val < b
  · rw [dif_pos hn, dif_pos hn]
  · rw [dif_neg hn, dif_neg hn]; exact sitofp_zero_apply .f32 ix0

/-- The same table built from clipped and wrapped index vectors: in range, the clip and the wrap change nothing. -/
theorem denseProg_apply (hbx : (⟨0, ![]⟩ : Shape).BroadcastsInDim ⟨2, ![Kp, Np]⟩ ![])
    (hbs : (⟨0, ![]⟩ : Shape).BroadcastsInDim ⟨1, ![E]⟩ ![]) (hlt : FTy.bits .bf16 < FTy.bits .f32)
    (hiR hiC kR kC : BitVec 32) (hhiR : hiR.toInt + 1 = (nOut : Int)) (hhiC : hiC.toInt + 1 = (nIn : Int)) :
    truncf (F := Ideal) .bf16
        (Host.scatterAdd (F := Ideal) (φ := .f32) (ScatterDims.pairs wf)
          (broadcastInDim ⟨2, ![Kp, Np]⟩ ![] hbx (constant (F := Ideal) ⟨0, ![]⟩ .f32 0x00000000#32))
          (idxPair hb hc (wrapv hbs kC (clipv hbs 0#32 hiC cols)) (wrapv hbs kR (clipv hbs 0#32 hiR rows)))
          (vals : FVec Ideal ⟨1, ![E]⟩ .f32)) hlt (ix2 k n)
      = if h : k.val < nIn ∧ n.val < nOut
        then Spec.dense (Spec.dec hr) (Spec.dec hcl) (Spec.arr1 vals) ⟨k.val, h.1⟩ ⟨n.val, h.2⟩ else 0 := by
  refine (truncf_apply _ hlt (ix2 k n)).trans ?_
  unfold Host.scatterAdd
  rw [Ideal.hostScatterAdd_def]
  refine denseTable_apply wf rows cols vals hr hcl k n _ (fun i => ?_) _ (fun p => ?_) (fun p => ?_)
  · rw [broadcastInDim_scalar_apply]; exact Ideal.ofBits_zero_f32
  · rw [idxPair_apply0]
    have := hcl p
    exact wrapv_clipv_apply hbs hiC kC cols (ix1 p) this.1 (by omega)
  · rw [idxPair_apply1]
    have := hr p
    exact wrapv_clipv_apply hbs hiR kR rows (ix1 p) this.1 (by omega)

end Cert.KI

end
-- ==== Proof.KI.HostVals.lean ====
import proofs.«402315_j14740327760019_3_alg».proof.Proof.Gen.KernelIdeal.Regions
import proofs.«402315_j14740327760019_3_alg».proof.Proof.KI.HostGeneric
import Idealize.ShloMosaic.Lib.StableHlo.Run

noncomputable section

namespace Cert.KI

open Idealize.ShloMosaic Idealize.ShloMosaic.TcCoe Idealize.ShloMosaic.ValueIdx
open Cert.KernelIdeal Cert.KernelIdeal.Gen

variable (m : (ℓ : Loc nD τ sig) → Buf (Elt Ideal) ℓ) (outs : Outs (F := Ideal))

abbrev argX (c : Dev nD) : (⟨2, ![256, 20000]⟩ : Shape).Idx → EReal := m (c, Proc.devRef .tc main_arg0)

abbrev argRows0 (c : Dev nD) : (⟨1, ![256000]⟩ : Shape).Idx → BitVec 32 := m (c, Proc.devRef .tc main_arg1)
abbrev argCols0 (c : Dev nD) : (⟨1, ![256000]⟩ : Shape).Idx → BitVec 32 := m (c, Proc.devRef .tc main_arg2)
abbrev argVals0 (c : Dev nD) : (⟨1, ![256000]⟩ : Shape).Idx → EReal := m (c, Proc.devRef .tc main_arg3)
abbrev argBias0 (c : Dev nD) : (⟨1, ![8000]⟩ : Shape).Idx → EReal := m (c, Proc.devRef .tc main_arg4)

abbrev argRows1 (c : Dev nD) : (⟨1, ![64000]⟩ : Shape).Idx → BitVec 32 := m (c, Proc.devRef .tc main_arg5)
abbrev argCols1 (c : Dev nD) : (⟨1, ![64000]⟩ : Shape).Idx → BitVec 32 := m (c, Proc.devRef .tc main_arg6)
abbrev argVals1 (c : Dev nD) : (⟨1, ![64000]⟩ : Shape).Idx → EReal := m (c, Proc.devRef .tc main_arg7)
abbrev argBias1 (c : Dev nD) : (⟨1, ![2000]⟩ : Shape).Idx → EReal := m (c, Proc.devRef .tc main_arg8)

abbrev argRows2 (c : Dev nD) : (⟨1, ![16000]⟩ : Shape).Idx → BitVec 32 := m (c, Proc.devRef .tc main_arg9)
abbrev argCols2 (c : Dev nD) : (⟨1, ![16000]⟩ : Shape).Idx → BitVec 32 := m (c, Proc.devRef .tc main_arg10)
abbrev argVals2 (c : Dev nD) : (⟨1, ![16000]⟩ : Shape).Idx → EReal := m (c, Proc.devRef .tc main_arg11)
abbrev argBias2 (c : Dev nD) : (⟨1, ![500]⟩ : Shape).Idx → EReal := m (c, Proc.devRef .tc main_arg12)

/-- The padded input: the input inside the 20000 real columns, zero in the padding. -/
theorem V9_main_v1_apply (c : Dev nD) (p : Fin 256) (k : Fin 20480) :
    (V9 m c main_v1 : (⟨2, ![256, 20480]⟩ : Shape).Idx → EReal) (ix2 p k)
      = if h : k.val < 20000 then argX m c (ix2 p ⟨k.val, h⟩) else 0 := by
  rw [(V9_of m c main_v1 (by decide)).trans <| (V8_of m c main_v1 (by decide)).trans <|
    (V7_of m c main_v1 (by decide)).trans <| (V6_of m c main_v1 (by decide)).trans <|
    (V5_of m c main_v1 (by decide)).trans <| (V4_of m c main_v1 (by decide)).trans <| V3_of m c main_v1 (by decide)]
  show StableHlo.after hostOps0_1 (V1 m c) (Proc.devRef .tc main_v1) (ix2 p k) = _
  dsimp only [hostOps0_1]
  after_results_simp
  exact padInput_apply (argX m c) Gen.pads_S256x20000_S256x20480_000_04800 Gen.h_S_ Gen.bitsLt_bf16_f32 p k

/-- Layer 0's padded table: the dense table inside 20000 × 8000, zero in the padding (layers 1 and 2 alike below). -/
theorem V9_main_v19_apply (c : Dev nD) (hr0 : Spec.InRange (argRows0 m c) 8000) (hc0 : Spec.InRange (argCols0 m c) 20000)
    (k : Fin 20480) (n : Fin 8192) :
    (V9 m c main_v19 : (⟨2, ![20480, 8192]⟩ : Shape).Idx → EReal) (ix2 k n)
      = if h : k.val < 20000 ∧ n.val < 8000
        then Spec.dense (Spec.dec hr0) (Spec.dec hc0) (Spec.arr1 (argVals0 m c)) ⟨k.val, h.1⟩ ⟨n.val, h.2⟩ else 0 := by
  rw [(V9_of m c main_v19 (by decide)).trans (V8_of m c main_v19 (by decide))]
  show StableHlo.after hostOps0_6 (V6 m c) (Proc.devRef .tc main_v19) (ix2 k n) = _
  rw [← List.take_append_drop 18 hostOps0_6, StableHlo.after_append]
  generalize hW : StableHlo.after (List.take 18 (hostOps0_6 (F := Ideal))) _ = W'
  simp only [hostOps0_6, List.drop_succ_cons, List.drop_zero]
  after_results_simp
  have eZ : W' (Proc.devRef .tc main_v4)
      = broadcastInDim S20480x8192 ![] Gen.bcast_S_S20480x8192 (constant (F := Ideal) S_ .f32 0x00000000#32) := by
    rw [← hW]
    simp only [hostOps0_6, List.take_succ_cons, List.take_zero]
    after_results_simp
  have eC : W' (Proc.devRef .tc main_v15)
      = broadcastInDim S256000x1 ![0] Gen.bcast_S256000_S256000x1_0
          (wrapv Gen.bcast_S_S256000 20480#32 (clipv Gen.bcast_S_S256000 0#32 19999#32 (argCols0 m c))) := by
    rw [← hW]
    simp only [hostOps0_6, List.take_succ_cons, List.take_zero]
    after_results_simp
    rfl
  have eR : W' (Proc.devRef .tc main_v16)
      = broadcastInDim S256000x1 ![0] Gen.bcast_S256000_S256000x1_0
          (wrapv Gen.bcast_S_S256000 8192#32 (clipv Gen.bcast_S_S256000 0#32 7999#32 (argRows0 m c))) := by
    rw [← hW]
    simp only [hostOps0_6, List.take_succ_cons, List.take_zero]
    after_results_simp
    rfl
  have eV : W' (Proc.devRef .tc main_arg3) = argVals0 m c := by
    rw [← hW]
    simp only [hostOps0_6, List.take_succ_cons, List.take_zero]
    after_results_simp
  rw [eZ, eC, eR, eV]
  exact denseProg_apply Gen.bcast_S256000_S256000x1_0 Gen.concatenates_S256000x1_S256000x1_S256000x2_d1
    Gen.scatter_S20480x8192_S256000x2_S256000_n_01_01_1_wf (argRows0 m c) (argCols0 m c) (argVals0 m c) hr0 hc0 k n
    Gen.bcast_S_S20480x8192 Gen.bcast_S_S256000 Gen.bitsLt_bf16_f32 7999#32 19999#32 8192#32 20480#32 (by decide) (by decide)

/-- Layer 0's padded bias row: the bias inside the 8000 real units, zero in the padding (layers 1 and 2 alike below). -/
theorem V9_main_v21_apply (c : Dev nD) (u : Fin 1) (n : Fin 8192) :
    (V9 m c main_v21 : (⟨2, ![1, 8192]⟩ : Shape).Idx → EReal) (ix2 u n)
      = if h : n.val < 8000 then argBias0 m c (ix1 ⟨n.val, h⟩) else 0 := by
  show StableHlo.after hostOps0_8 (V8 m c) (Proc.devRef .tc main_v21) (ix2 u n) = _
  dsimp only [hostOps0_8]
  after_results_simp
  exact padBias_apply (argBias0 m c) Gen.pads_S8000_S8192_01920 Gen.h_S_ Gen.shapeCasts_S8192_S1x8192 u n

/-- An array that neither region 0 nor a host operation before it writes still holds its launch contents after region 0. -/
theorem V10_of_launch (c : Dev nD) (r : Ref sig .tc)
    (h : r ∉ ([main_v22] : List (Ref sig .tc)) ∧ r ∉ hostOps0_8_W ∧ r ∉ hostOps0_7_W ∧ r ∉ hostOps0_6_W
      ∧ r ∉ hostOps0_5_W ∧ r ∉ hostOps0_4_W ∧ r ∉ hostOps0_3_W ∧ r ∉ hostOps0_2_W ∧ r ∉ hostOps0_1_W ∧ r ∉ hostOps0_W) :
    V10 m outs c r = m (c, Proc.devRef .tc r) :=
  (V10_of m outs c r h.1).trans <| (V9_of m c r h.2.1).trans <| (V8_of m c r h.2.2.1).trans <|
    (V7_of m c r h.2.2.2.1).trans <| (V6_of m c r h.2.2.2.2.1).trans <| (V5_of m c r h.2.2.2.2.2.1).trans <|
    (V4_of m c r h.2.2.2.2.2.2.1).trans <| (V3_of m c r h.2.2.2.2.2.2.2.1).trans <|
    (V2_of m c r h.2.2.2.2.2.2.2.2.1).trans <| V1_of m c r h.2.2.2.2.2.2.2.2.2

/-- Region 1's input is what region 0 left in its result buffer. -/
theorem V17_main_v22 (c : Dev nD) : V17 m outs c main_v22 = outs 10 main_v22 c := by
  refine (V17_of m outs c main_v22 (by decide)).trans <| (V16_of m outs c main_v22 (by decide)).trans <|
    (V15_of m outs c main_v22 (by decide)).trans <| (V14_of m outs c main_v22 (by decide)).trans <|
    (V13_of m outs c main_v22 (by decide)).trans <| (V12_of m outs c main_v22 (by decide)).trans <|
    (V11_of m outs c main_v22 (by decide)).trans ?_
  show Function.update (V9 m c) (Proc.devRef .tc main_v22) (outs 10 main_v22 c) (Proc.devRef .tc main_v22) = _
  exact Function.update_self ..

theorem V17_main_v40_apply (c : Dev nD) (hr1 : Spec.InRange (argRows1 m c) 2000) (hc1 : Spec.InRange (argCols1 m c) 8000)
    (k : Fin 8192) (n : Fin 2048) :
    (V17 m outs c main_v40 : (⟨2, ![8192, 2048]⟩ : Shape).Idx → EReal) (ix2 k n)
      = if h : k.val < 8000 ∧ n.val < 2000
        then Spec.dense (Spec.dec hr1) (Spec.dec hc1) (Spec.arr1 (argVals1 m c)) ⟨k.val, h.1⟩ ⟨n.val, h.2⟩ else 0 := by
  rw [(V17_of m outs c main_v40 (by decide)).trans (V16_of m outs c main_v40 (by decide))]
  show StableHlo.after hostOps1_4 (V14 m outs c) (Proc.devRef .tc main_v40) (ix2 k n) = _
  dsimp only [V14, V13, V12, V11]
  have hL := V10_of_launch m outs c
  generalize V10 m outs c = W10 at hL ⊢
  rw [← List.take_append_drop 18 hostOps1_4, StableHlo.after_append]
  generalize hW : StableHlo.after (List.take 18 (hostOps1_4 (F := Ideal))) _ = W'
  simp only [hostOps1_4, List.drop_succ_cons, List.drop_zero]
  after_results_simp
  have eZ : W' (Proc.devRef .tc main_v25)
      = broadcastInDim S8192x2048 ![] Gen.bcast_S_S8192x2048 (constant (F := Ideal) S_ .f32 0x00000000#32) := by
    rw [← hW]
    simp only [hostOps1_4, List.take_succ_cons, List.take_zero]
    after_results_simp
  have eC : W' (Proc.devRef .tc main_v36)
      = broadcastInDim S64000x1 ![0] Gen.bcast_S64000_S64000x1_0
          (wrapv Gen.bcast_S_S64000 8192#32 (clipv Gen.bcast_S_S64000 0#32 7999#32 (argCols1 m c))) := by
    rw [← hW]
    simp only [hostOps1_4, List.take_succ_cons, List.take_zero]
    after_results_simp
    rw [hL main_arg6 (by decide)]
    rfl
  have eR : W' (Proc.devRef .tc main_v37)
      = broadcastInDim S64000x1 ![0] Gen.bcast_S64000_S64000x1_0
          (wrapv Gen.bcast_S_S64000 2048#32 (clipv Gen.bcast_S_S64000 0#32 1999#32 (argRows1 m c))) := by
    rw [← hW]
    simp only [hostOps1_4, List.take_succ_cons, List.take_zero]
    after_results_simp
    rw [hL main_arg5 (by decide)]
    rfl
  have eV : W' (Proc.devRef .tc main_arg7) = argVals1 m c := by
    rw [← hW]
    simp only [hostOps1_4, List.take_succ_cons, List.take_zero]
    after_results_simp
    rw [hL main_arg7 (by decide)]
  rw [eZ, eC, eR, eV]
  exact denseProg_apply Gen.bcast_S64000_S64000x1_0 Gen.concatenates_S64000x1_S64000x1_S64000x2_d1
    Gen.scatter_S8192x2048_S64000x2_S64000_n_01_01_1_wf (argRows1 m c) (argCols1 m c) (argVals1 m c) hr1 hc1 k n
    Gen.bcast_S_S8192x2048 Gen.bcast_S_S64000 Gen.bitsLt_bf16_f32 1999#32 7999#32 2048#32 8192#32 (by decide) (by decide)

theorem V17_main_v42_apply (c : Dev nD) (u : Fin 1) (n : Fin 2048) :
    (V17 m outs c main_v42 : (⟨2, ![1, 2048]⟩ : Shape).Idx → EReal) (ix2 u n)
      = if h : n.val < 2000 then argBias1 m c (ix1 ⟨n.val, h⟩) else 0 := by
  show StableHlo.after hostOps1_6 (V16 m outs c) (Proc.devRef .tc main_v42) (ix2 u n) = _
  dsimp only [V16, V15, V14, V13, V12, V11]
  generalize hW10 : V10 m outs c = W10
  dsimp only [hostOps1_6]
  after_results_simp
  rw [← hW10, V10_of_launch m outs c main_arg8 (by decide)]
  exact padBias_apply (argBias1 m c) Gen.pads_S2000_S2048_0480 Gen.h_S_ Gen.shapeCasts_S2048_S1x2048 u n

/-- The same after region 1. -/
theorem V18_of_launch (c : Dev nD) (r : Ref sig .tc)
    (h : (r ∉ ([main_v43] : List (Ref sig .tc)) ∧ r ∉ hostOps1_6_W ∧ r ∉ hostOps1_5_W ∧ r ∉ hostOps1_4_W
      ∧ r ∉ hostOps1_3_W ∧ r ∉ hostOps1_2_W ∧ r ∉ hostOps1_1_W ∧ r ∉ hostOps1_W)
      ∧ r ∉ ([main_v22] : List (Ref sig .tc)) ∧ r ∉ hostOps0_8_W ∧ r ∉ hostOps0_7_W ∧ r ∉ hostOps0_6_W
      ∧ r ∉ hostOps0_5_W ∧ r ∉ hostOps0_4_W ∧ r ∉ hostOps0_3_W ∧ r ∉ hostOps0_2_W ∧ r ∉ hostOps0_1_W ∧ r ∉ hostOps0_W) :
    V18 m outs c r = m (c, Proc.devRef .tc r) :=
  (V18_of m outs c r h.1.1).trans <| (V17_of m outs c r h.1.2.1).trans <| (V16_of m outs c r h.1.2.2.1).trans <|
    (V15_of m outs c r h.1.2.2.2.1).trans <| (V14_of m outs c r h.1.2.2.2.2.1).trans <|
    (V13_of m outs c r h.1.2.2.2.2.2.1).trans <| (V12_of m outs c r h.1.2.2.2.2.2.2.1).trans <|
    (V11_of m outs c r h.1.2.2.2.2.2.2.2).trans <| V10_of_launch m outs c r h.2

/-- Region 2's input is what region 1 left in its result buffer. -/
theorem V25_main_v43 (c : Dev nD) : V25 m outs c main_v43 = outs 18 main_v43 c := by
  refine (V25_of m outs c main_v43 (by decide)).trans <| (V24_of m outs c main_v43 (by decide)).trans <|
    (V23_of m outs c main_v43 (by decide)).trans <| (V22_of m outs c main_v43 (by decide)).trans <|
    (V21_of m outs c main_v43 (by decide)).trans <| (V20_of m outs c main_v43 (by decide)).trans <|
    (V19_of m outs c main_v43 (by decide)).trans ?_
  show Function.update (V17 m outs c) (Proc.devRef .tc main_v43) (outs 18 main_v43 c) (Proc.devRef .tc main_v43) = _
  exact Function.update_self ..

theorem V25_main_v61_apply (c : Dev nD) (hr2 : Spec.InRange (argRows2 m c) 500) (hc2 : Spec.InRange (argCols2 m c) 2000)
    (k : Fin 2048) (n : Fin 512) :
    (V25 m outs c main_v61 : (⟨2, ![2048, 512]⟩ : Shape).Idx → EReal) (ix2 k n)
      = if h : k.val < 2000 ∧ n.val < 500
        then Spec.dense (Spec.dec hr2) (Spec.dec hc2) (Spec.arr1 (argVals2 m c)) ⟨k.val, h.1⟩ ⟨n.val, h.2⟩ else 0 := by
  rw [(V25_of m outs c main_v61 (by decide)).trans (V24_of m outs c main_v61 (by decide))]
  show StableHlo.after hostOps2_4 (V22 m outs c) (Proc.devRef .tc main_v61) (ix2 k n) = _
  dsimp only [V22, V21, V20, V19]
  have hL := V18_of_launch m outs c
  generalize V18 m outs c = W18 at hL ⊢
  rw [← List.take_append_drop 18 hostOps2_4, StableHlo.after_append]
  generalize hW : StableHlo.after (List.take 18 (hostOps2_4 (F := Ideal))) _ = W'
  simp only [hostOps2_4, List.drop_succ_cons, List.drop_zero]
  after_results_simp
  have eZ : W' (Proc.devRef .tc main_v46)
      = broadcastInDim S2048x512 ![] Gen.bcast_S_S2048x512 (constant (F := Ideal) S_ .f32 0x00000000#32) := by
    rw [← hW]
    simp only [hostOps2_4, List.take_succ_cons, List.take_zero]
    after_results_simp
  have eC : W' (Proc.devRef .tc main_v57)
      = broadcastInDim S16000x1 ![0] Gen.bcast_S16000_S16000x1_0
          (wrapv Gen.bcast_S_S16000 2048#32 (clipv Gen.bcast_S_S16000 0#32 1999#32 (argCols2 m c))) := by
    rw [← hW]
    simp only [hostOps2_4, List.take_succ_cons, List.take_zero]
    after_results_simp
    rw [hL main_arg10 (by decide)]
    rfl
  have eR : W' (Proc.devRef .tc main_v58)
      = broadcastInDim S16000x1 ![0] Gen.bcast_S16000_S16000x1_0
          (wrapv Gen.bcast_S_S16000 512#32 (clipv Gen.bcast_S_S16000 0#32 499#32 (argRows2 m c))) := by
    rw [← hW]
    simp only [hostOps2_4, List.take_succ_cons, List.take_zero]
    after_results_simp
    rw [hL main_arg9 (by decide)]
    rfl
  have eV : W' (Proc.devRef .tc main_arg11) = argVals2 m c := by
    rw [← hW]
    simp only [hostOps2_4, List.take_succ_cons, List.take_zero]
    after_results_simp
    rw [hL main_arg11 (by decide)]
  rw [eZ, eC, eR, eV]
  exact denseProg_apply Gen.bcast_S16000_S16000x1_0 Gen.concatenates_S16000x1_S16000x1_S16000x2_d1
    Gen.scatter_S2048x512_S16000x2_S16000_n_01_01_1_wf (argRows2 m c) (argCols2 m c) (argVals2 m c) hr2 hc2 k n
    Gen.bcast_S_S2048x512 Gen.bcast_S_S16000 Gen.bitsLt_bf16_f32 499#32 1999#32 512#32 2048#32 (by decide) (by decide)

theorem V25_main_v63_apply (c : Dev nD) (u : Fin 1) (n : Fin 512) :
    (V25 m outs c main_v63 : (⟨2, ![1, 512]⟩ : Shape).Idx → EReal) (ix2 u n)
      = if h : n.val < 500 then argBias2 m c (ix1 ⟨n.val, h⟩) else 0 := by
  show StableHlo.after hostOps2_6 (V24 m outs c) (Proc.devRef .tc main_v63) (ix2 u n) = _
  dsimp only [V24, V23, V22, V21, V20, V19]
  generalize hW18 : V18 m outs c = W18
  dsimp only [hostOps2_6]
  after_results_simp
  rw [← hW18, V18_of_launch m outs c main_arg12 (by decide)]
  exact padBias_apply (argBias2 m c) Gen.pads_S500_S512_0120 Gen.h_S_ Gen.shapeCasts_S512_S1x512 u n

/-- The program's result: the leading 500 columns of what region 2 left. -/
theorem V27_main_v65_apply (c : Dev nD) (p : Fin 256) (r : Fin 500) :
    (V27 m outs c main_v65 : (⟨2, ![256, 500]⟩ : Shape).Idx → EReal) (ix2 p r)
      = (outs 26 main_v64 c : (⟨2, ![256, 512]⟩ : Shape).Idx → EReal) (ix2 p ⟨r.val, by omega⟩) := by
  show StableHlo.after hostOps3 (V26 m outs c) (Proc.devRef .tc main_v65) (ix2 p r) = _
  generalize hW : V26 m outs c = W
  dsimp only [hostOps3]
  after_results_simp
  rw [← hW]
  show extractStridedSlice S256x500 ![0, 0]
    (Function.update (V25 m outs c) (Proc.devRef .tc main_v64) (outs 26 main_v64 c) (Proc.devRef .tc main_v64))
    Gen.slices_S256x512_S256x500_0_0 (ix2 p r) = _
  rw [Function.update_self]
  exact slice2_axis1_apply 0 _ _ p r ⟨r.val, by omega⟩ (by show r.val = 0 + r.val; omega)

end Cert.KI

end
-- ==== Proof.LibPlainDot.lean ====
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat) (r : Fin M) (c : Fin N) (k : Fin K)

theorem lhsIdx_eq :
    (DotDims.plain M K N).lhsIdx (ix2 r c) ((contrEquiv1 (DotDims.plain M K N) K rfl rfl).symm k) = ix2 r k := by
  funext a
  apply Fin.ext
  match a with
  | ⟨0, _⟩ => rfl
  | ⟨1, _⟩ => exact ((DotDims.plain M K N).lhsIdx_val_of_single rfl _ _).trans (contrEquiv1_symm_val _ K rfl rfl k)

theorem rhsIdx_eq :
    (DotDims.plain M K N).rhsIdx (ix2 r c) ((contrEquiv1 (DotDims.plain M K N) K rfl rfl).symm k) = ix2 k c := by
  funext a
  apply Fin.ext
  match a with
  | ⟨0, _⟩ => exact ((DotDims.plain M K N).rhsIdx_val_of_single rfl _ _).trans (contrEquiv1_symm_val _ K rfl rfl k)
  | ⟨1, _⟩ => rfl

/-- An M×K by K×N product into the zero accumulator, at entry (r, c): the sum over k of left (r, k) times right (k, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  exact Finset.sum_congr rfl fun k _ => by rw [lhsIdx_eq, rhsIdx_eq]

end Idealize.ShloMosaic.PlainDot

end
-- ==== Proof.KI.R0Pay.lean ====
import proofs.«402315_j14740327760019_3_alg».proof.Proof.LibPlainDot
import proofs.«402315_j14740327760019_3_alg».proof.Proof.SparseDense
import Idealize.ShloMosaic.Lib.ValueLayout

noncomputable section

namespace Cert.KernelIdeal.Val

open Idealize.ShloMosaic Idealize.ShloMosaic.ValueIdx Cert.Spec

variable {M K N : ℕ}

/-- The cleared accumulator is zero at every entry. -/
theorem pay1_apply {s : Shape} (h : s.ShapeCasts s) (i : s.Idx) :
    shapeCast s (broadcast s (Scalar.ofBits .f32 0x00000000#32 : Ideal .f32)) h i = 0 :=
  (congrFun (shapeCast_self _ h) i).trans Ideal.ofBits_zero_f32

/-- The accumulation step at an entry: the old accumulator plus the block product's entry. -/
theorem pay2_apply (h1 : (⟨2, ![M, K]⟩ : Shape).ShapeCasts ⟨2, ![M, K]⟩) (h2 : (⟨2, ![K, N]⟩ : Shape).ShapeCasts ⟨2, ![K, N]⟩)
    (h3 : (⟨2, ![M, N]⟩ : Shape).ShapeCasts ⟨2, ![M, N]⟩) (v3 : FVec Ideal ⟨2, ![M, N]⟩ .f32)
    (v4 : FVec Ideal ⟨2, ![M, K]⟩ .bf16) (v6 : FVec Ideal ⟨2, ![K, N]⟩ .bf16) (p : Fin M) (n : Fin N) :
    shapeCast _ (addf v3 (FloatOps.matmul (DotDims.plain M K N) none (shapeCast _ v4 h1) (shapeCast _ v6 h2)
        (constant ⟨2, ![M, N]⟩ .f32 0x00000000#32))) h3 (ix2 p n)
      = v3 (ix2 p n) + ∑ k : Fin K, v4 (ix2 p k) * v6 (ix2 k n) := by
  rw [shapeCast_self, shapeCast_self, shapeCast_self]
  exact congrArg (v3 (ix2 p n) + ·) (PlainDot.matmul_zero_apply M K N none v4 v6 p n)

/-- The closing step at an entry: the accumulator plus the bias of its column. -/
theorem pay3_apply (h1 : (⟨2, ![1, N]⟩ : Shape).ShapeCasts ⟨2, ![1, N]⟩) (hb : (⟨2, ![1, N]⟩ : Shape).Broadcasts ⟨2, ![M, N]⟩)
    (v16 : FVec Ideal ⟨2, ![M, N]⟩ .f32) (v17 : FVec Ideal ⟨2, ![1, N]⟩ .f32) (p : Fin M) (n : Fin N) :
    addf v16 (broadcastTo ⟨2, ![M, N]⟩ (shapeCast _ v17 h1) hb) (ix2 p n) = v16 (ix2 p n) + v17 (ix2 (0 : Fin 1) n) := by
  rw [shapeCast_self]
  exact congrArg (v16 (ix2 p n) + ·) (broadcastTo_1b_ab_apply v17 hb p n)

/-- The same followed by the clamp below at zero (the change of number format is the identity on the extended reals). -/
theorem pay3_relu_apply (h1 : (⟨2, ![1, N]⟩ : Shape).ShapeCasts ⟨2, ![1, N]⟩) (hb : (⟨2, ![1, N]⟩ : Shape).Broadcasts ⟨2, ![M, N]⟩)
    (hlt : FTy.bits .bf16 < FTy.bits .f32)
    (v16 : FVec Ideal ⟨2, ![M, N]⟩ .f32) (v17 : FVec Ideal ⟨2, ![1, N]⟩ .f32) (p : Fin M) (n : Fin N) :
    (truncf .bf16 (maximumf (addf v16 (broadcastTo ⟨2, ![M, N]⟩ (shapeCast _ v17 h1) hb))
        (broadcast ⟨2, ![M, N]⟩ (Scalar.ofBits .f32 0x00000000#32 : Ideal .f32))) hlt : FVec Ideal _ .bf16) (ix2 p n)
      = max (v16 (ix2 p n) + v17 (ix2 (0 : Fin 1) n)) 0 :=
  congrArg₂ max (pay3_apply h1 hb v16 v17 p n) Ideal.ofBits_zero_f32

variable {nk tk tn P : ℕ}

/-- Extended-real matrices, as arrays over a two-axis shape. -/
abbrev Mat (a b : ℕ) : Type := (⟨2, ![a, b]⟩ : Shape).Idx → EReal

/-- Entry `i` of a K-blocked product: the left fold of the blocks of Σ_k X (i₀, k) · W (k, i₁), plus the bias of column i₁, through `g`. -/
def tileRes (g : EReal → EReal) (j : ℕ) (hj : j < nk) (X : Mat M (nk * tk)) (W : Mat (nk * tk) N) (B : Mat 1 N) :
    Mat M N := fun i =>
  g (accUpTo (nk := nk) (tk := tk) (fun k => X (ix2 ⟨(i 0).val, idx2_lt0 i⟩ k) * W (ix2 k ⟨(i 1).val, idx2_lt1 i⟩)) j hj
    + B (ix2 (0 : Fin 1) ⟨(i 1).val, idx2_lt1 i⟩))

/-- Point `t` works on contracted block `t % nk` of column block `t / nk`: clear-and-add first, add after, store `g (acc + bias)` last; so the last point stores `tileRes`, by induction along the column block. -/
theorem tile_entry (g : EReal → EReal) (j : ℕ) (hj : j + 1 = nk) (X : Mat M (nk * tk)) (W : Mat (nk * tk) N) (B : Mat 1 N)
    (xb : (t : ℕ) → t < P → Mat M tk) (wb : (t : ℕ) → t < P → Mat tk tn) (bb : (t : ℕ) → t < P → Mat 1 tn)
    (hx : ∀ t ht p k (k' : Fin (nk * tk)), k'.val = t % nk * tk + k.val → xb t ht (ix2 p k) = X (ix2 p k'))
    (hw : ∀ t ht k q (k' : Fin (nk * tk)) (n : Fin N), k'.val = t % nk * tk + k.val → n.val = t / nk * tn + q.val →
      wb t ht (ix2 k q) = W (ix2 k' n))
    (hb : ∀ t ht q (n : Fin N), n.val = t / nk * tn + q.val → bb t ht (ix2 (0 : Fin 1) q) = B (ix2 (0 : Fin 1) n))
    (outs : (t : ℕ) → t < P → Mat M tn × Mat M tn) (pay1 : Mat M tn)
    (pay2 : Mat M tn → Mat M tk → Mat tk tn → Mat M tn) (pay3 : Mat M tn → Mat 1 tn → Mat M tn)
    (hp1 : ∀ p q, pay1 (ix2 p q) = 0)
    (hp2 : ∀ v3 v4 v6 p q, pay2 v3 v4 v6 (ix2 p q) = v3 (ix2 p q) + ∑ k : Fin tk, v4 (ix2 p k) * v6 (ix2 k q))
    (hp3 : ∀ v b p q, pay3 v b (ix2 p q) = g (v (ix2 p q) + b (ix2 (0 : Fin 1) q)))
    (h0 : ∀ t ht, t % nk = 0 → (outs t ht).2 = pay2 pay1 (xb t ht) (wb t ht))
    (hs : ∀ t ht, ¬t % nk = 0 → (outs t ht).2 = pay2 (outs (t - 1) (by omega)).2 (xb t ht) (wb t ht))
    (hl : ∀ t ht, t % nk = j → (outs t ht).1 = pay3 (outs t ht).2 (bb t ht))
    (t : ℕ) (ht : t < P) (hlast : t % nk = j) (p : Fin M) (q : Fin tn) (n : Fin N) (hn : n.val = t / nk * tn + q.val) :
    (outs t ht).1 (ix2 p q) = tileRes g j (by omega) X W B (ix2 p n) := by
  have hnk : 0 < nk := by omega
  have blk : ∀ u hu, u / nk = t / nk → ∀ i (hi : i < nk), u % nk = i →
      ∑ k : Fin tk, xb u hu (ix2 p k) * wb u hu (ix2 k q)
        = blockSum (fun k => X (ix2 p k) * W (ix2 k n)) ⟨i, hi⟩ := fun u hu hd i hi hm =>
    Finset.sum_congr rfl fun k _ => congrArg₂ (· * ·) (hx u hu p k ⟨i * tk + k.val, _⟩ (by rw [hm]))
      (hw u hu k q ⟨i * tk + k.val, _⟩ n (by rw [hm]) (by rw [hd]; exact hn))
  have acc : ∀ (i : ℕ) (hi : i < nk) (u : ℕ) (hu : u < P), u / nk = t / nk → u % nk = i →
      (outs u hu).2 (ix2 p q) = accUpTo (nk := nk) (tk := tk) (fun k => X (ix2 p k) * W (ix2 k n)) i hi := by
    intro i
    induction i with
    | zero =>
      intro hi u hu hd hm
      rw [h0 u hu hm, hp2, hp1, accUpTo]
      exact congrArg (0 + ·) (blk u hu hd 0 hi hm)
    | succ i ih =>
      intro hi u hu hd hm
      have hi' : i < nk := Nat.lt_of_succ_lt hi
      have e : u - 1 = nk * (u / nk) + i := by have := Nat.div_add_mod u nk; omega
      rw [hs u hu (by omega), hp2, accUpTo, ih hi' (u - 1) (by omega)
        (by rw [e, Nat.mul_add_div hnk, Nat.div_eq_of_lt hi', Nat.add_zero, hd])
        (by rw [e, Nat.mul_add_mod, Nat.mod_eq_of_lt hi'])]
      exact congrArg (_ + ·) (blk u hu hd (i + 1) hi hm)
  rw [hl t ht hlast, hp3]
  exact congrArg g (congrArg₂ (· + ·) (acc j (by omega) t ht rfl hlast) (hb t ht q n hn))

end Cert.KernelIdeal.Val

end
-- ==== Proof.KI.R0Value.lean ====
import proofs.«402315_j14740327760019_3_alg».proof.Proof.KI.R0Body
import proofs.«402315_j14740327760019_3_alg».proof.Proof.KI.R0Pay

noncomputable section

namespace Cert.KernelIdeal.Val

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b)) (c : Dev nD)

abbrev xarr0 : Vec Ideal S256x20480 .bf16 := V c (Pipeline.arrRef spec0 0)
abbrev warr0 : Vec Ideal S20480x8192 .bf16 := V c (Pipeline.arrRef spec0 1)
abbrev barr0 : Vec Ideal S1x8192 .f32 := V c (Pipeline.arrRef spec0 2)

/-- Point `t` works on contracted block `t % 20` and column block `t / 20`; the row block is always 0. -/
theorem idx_facts0 : ∀ t : Fin cfg0.N,
    win0_0.index t (0 : Fin 2) = 0 ∧ win0_0.index t (1 : Fin 2) = t.val % 20
    ∧ win0_1.index t (0 : Fin 2) = t.val % 20 ∧ win0_1.index t (1 : Fin 2) = t.val / 20
    ∧ win0_2.index t (0 : Fin 2) = 0 ∧ win0_2.index t (1 : Fin 2) = t.val / 20
    ∧ win0_3.index t (0 : Fin 2) = 0 ∧ win0_3.index t (1 : Fin 2) = t.val / 20 :=
  (by decide +kernel : ∀ t : Fin grid0.N, _)

variable (t : Fin cfg0.N)

theorem xblk0_apply (p : Fin 256) (k : Fin 1024) (k' : Fin 20480) (hk : k'.val = t.val % 20 * 1024 + k.val) :
    iblk0 V c 0 t (ix2 p k) = xarr0 V c (ix2 p k') := by
  obtain ⟨e0, e1, -⟩ := idx_facts0 t
  unfold iblk0
  rw [View.read_apply]
  refine congrArg (xarr0 V c) (Shape.idx_ext₂ ?_ ?_)
  · show win0_0.index t (0 : Fin 2) * 256 + 1 * p.val = p.val; omega
  · show win0_0.index t (1 : Fin 2) * 1024 + 1 * k.val = k'.val; omega

theorem wblk0_apply (k : Fin 1024) (q : Fin 4096) (k' : Fin 20480) (n : Fin 8192)
    (hk : k'.val = t.val % 20 * 1024 + k.val) (hn : n.val = t.val / 20 * 4096 + q.val) :
    iblk0 V c 1 t (ix2 k q) = warr0 V c (ix2 k' n) := by
  obtain ⟨-, -, e2, e3, -⟩ := idx_facts0 t
  unfold iblk0
  rw [View.read_apply]
  refine congrArg (warr0 V c) (Shape.idx_ext₂ ?_ ?_)
  · show win0_1.index t (0 : Fin 2) * 1024 + 1 * k.val = k'.val; omega
  · show win0_1.index t (1 : Fin 2) * 4096 + 1 * q.val = n.val; omega

theorem bblk0_apply (q : Fin 4096) (n : Fin 8192) (hn : n.val = t.val / 20 * 4096 + q.val) :
    iblk0 V c 2 t (ix2 (0 : Fin 1) q) = barr0 V c (ix2 (0 : Fin 1) n) := by
  obtain ⟨-, -, -, -, e4, e5, -⟩ := idx_facts0 t
  unfold iblk0
  rw [View.read_apply]
  refine congrArg (barr0 V c) (Shape.idx_ext₂ ?_ ?_)
  · show win0_2.index t (0 : Fin 2) * 1 + 1 * 0 = 0; omega
  · show win0_2.index t (1 : Fin 2) * 4096 + 1 * q.val = n.val; omega

theorem oblk0_emb (p : Fin 256) (q : Fin 4096) (n : Fin 8192) (hn : n.val = t.val / 20 * 4096 + q.val) :
    ((cfg0.win 3).blk t).view.emb (ix2 p q) = ix2 p n := by
  obtain ⟨-, -, -, -, -, -, e6, e7⟩ := idx_facts0 t
  refine Shape.idx_ext₂ ?_ ?_
  · show win0_3.index t (0 : Fin 2) * 256 + 1 * p.val = p.val; omega
  · show win0_3.index t (1 : Fin 2) * 4096 + 1 * q.val = n.val; omega

/-- The region's result array is the K-blocked product plus bias, clamped: each column block is what its last grid point leaves, and the column blocks cover the array. -/
theorem final0 : (dat0 V c).arrAt 3 cfg0.N
    = tileRes (nk := 20) (tk := 1024) (max · 0) 19 (by decide) (xarr0 V c) (warr0 V c) (barr0 V c) := by
  refine (dat0 V c).arrAt_eq_of_cover 3 _ (fun t hf => ?_) (fun (i : S256x8192.Idx) => ?_)
  · have h19 : t.val % 20 = 19 := (flush0_3 t).mp hf
    show (cfg0.win 3).cut (grid0.coords t) ((dat0 V c).after 3 t) = _
    rw [after0_3]
    refine funext fun (y : S256x4096.Idx) => ?_
    obtain ⟨p, q, rfl⟩ : ∃ (p : Fin 256) (q : Fin 4096), y = ix2 p q := ⟨y 0, y 1, eq_ix2 y⟩
    have : t.val < 40 := N_0 ▸ t.isLt
    rw [View.read_apply, oblk0_emb t p q ⟨t.val / 20 * 4096 + q.val, by omega⟩ rfl]
    exact tile_entry (nk := 20) (tk := 1024) (tn := 4096) (max · 0) 19 rfl (xarr0 V c) (warr0 V c) (barr0 V c)
      (fun t ht => iblk0 V c 0 ⟨t, ht⟩) (fun t ht => iblk0 V c 1 ⟨t, ht⟩) (fun t ht => iblk0 V c 2 ⟨t, ht⟩)
      (fun t ht => xblk0_apply V c ⟨t, ht⟩) (fun t ht => wblk0_apply V c ⟨t, ht⟩) (fun t ht => bblk0_apply V c ⟨t, ht⟩)
      (outsAt0 V c) (k0_pay1 (F := Ideal)) (k0_pay2 (F := Ideal)) (k0_pay3 (F := Ideal)) (fun _ _ => pay1_apply _ _) (pay2_apply _ _ _) (pay3_relu_apply _ _ _)
      (fun t ht => accAt0_first V c ⟨t, ht⟩) (fun t ht => accAt0_next V c ⟨t, ht⟩) (fun _ _ _ => rfl)
      t.val t.isLt h19 p q _ rfl
  · have := idx2_lt1 i
    have hN : cfg0.N = 40 := N_0
    obtain ⟨t, h19, hq⟩ : ∃ t : Fin cfg0.N, t.val % 20 = 19 ∧ (i 1).val = t.val / 20 * 4096 + (i 1).val % 4096 :=
      ⟨⟨(i 1).val / 4096 * 20 + 19, by omega⟩, by dsimp only; omega, by dsimp only; omega⟩
    exact ⟨t, (flush0_3 t).mpr h19, ((oblk0_emb t ⟨(i 0).val, idx2_lt0 i⟩ ⟨(i 1).val % 4096, by omega⟩ ⟨(i 1).val, this⟩
      hq).trans (eq_ix2 i).symm) ▸ ((cfg0.win 3).blk t).view.emb_mem_set _⟩

end Cert.KernelIdeal.Val

end
-- ==== Proof.KI.R1Value.lean ====
import proofs.«402315_j14740327760019_3_alg».proof.Proof.KI.R1Body
import proofs.«402315_j14740327760019_3_alg».proof.Proof.KI.R0Pay

noncomputable section

namespace Cert.KernelIdeal.Val

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b)) (c : Dev nD)

abbrev xarr1 : Vec Ideal S256x8192 .bf16 := V c (Pipeline.arrRef spec1 0)
abbrev warr1 : Vec Ideal S8192x2048 .bf16 := V c (Pipeline.arrRef spec1 1)
abbrev barr1 : Vec Ideal S1x2048 .f32 := V c (Pipeline.arrRef spec1 2)

/-- Point `t` works on contracted block `t % 16` and column block `t / 16`; the row block is always 0. -/
theorem idx_facts1 : ∀ t : Fin cfg1.N,
    win1_0.index t (0 : Fin 2) = 0 ∧ win1_0.index t (1 : Fin 2) = t.val % 16
    ∧ win1_1.index t (0 : Fin 2) = t.val % 16 ∧ win1_1.index t (1 : Fin 2) = t.val / 16
    ∧ win1_2.index t (0 : Fin 2) = 0 ∧ win1_2.index t (1 : Fin 2) = t.val / 16
    ∧ win1_3.index t (0 : Fin 2) = 0 ∧ win1_3.index t (1 : Fin 2) = t.val / 16 :=
  (by decide +kernel : ∀ t : Fin grid1.N, _)

variable (t : Fin cfg1.N)

theorem xblk1_apply (p : Fin 256) (k : Fin 512) (k' : Fin 8192) (hk : k'.val = t.val % 16 * 512 + k.val) :
    iblk1 V c 0 t (ix2 p k) = xarr1 V c (ix2 p k') := by
  obtain ⟨e0, e1, -⟩ := idx_facts1 t
  unfold iblk1
  rw [View.read_apply]
  refine congrArg (xarr1 V c) (Shape.idx_ext₂ ?_ ?_)
  · show win1_0.index t (0 : Fin 2) * 256 + 1 * p.val = p.val; omega
  · show win1_0.index t (1 : Fin 2) * 512 + 1 * k.val = k'.val; omega

theorem wblk1_apply (k : Fin 512) (q : Fin 1024) (k' : Fin 8192) (n : Fin 2048)
    (hk : k'.val = t.val % 16 * 512 + k.val) (hn : n.val = t.val / 16 * 1024 + q.val) :
    iblk1 V c 1 t (ix2 k q) = warr1 V c (ix2 k' n) := by
  obtain ⟨-, -, e2, e3, -⟩ := idx_facts1 t
  unfold iblk1
  rw [View.read_apply]
  refine congrArg (warr1 V c) (Shape.idx_ext₂ ?_ ?_)
  · show win1_1.index t (0 : Fin 2) * 512 + 1 * k.val = k'.val; omega
  · show win1_1.index t (1 : Fin 2) * 1024 + 1 * q.val = n.val; omega

theorem bblk1_apply (q : Fin 1024) (n : Fin 2048) (hn : n.val = t.val / 16 * 1024 + q.val) :
    iblk1 V c 2 t (ix2 (0 : Fin 1) q) = barr1 V c (ix2 (0 : Fin 1) n) := by
  obtain ⟨-, -, -, -, e4, e5, -⟩ := idx_facts1 t
  unfold iblk1
  rw [View.read_apply]
  refine congrArg (barr1 V c) (Shape.idx_ext₂ ?_ ?_)
  · show win1_2.index t (0 : Fin 2) * 1 + 1 * 0 = 0; omega
  · show win1_2.index t (1 : Fin 2) * 1024 + 1 * q.val = n.val; omega

theorem oblk1_emb (p : Fin 256) (q : Fin 1024) (n : Fin 2048) (hn : n.val = t.val / 16 * 1024 + q.val) :
    ((cfg1.win 3).blk t).view.emb (ix2 p q) = ix2 p n := by
  obtain ⟨-, -, -, -, -, -, e6, e7⟩ := idx_facts1 t
  refine Shape.idx_ext₂ ?_ ?_
  · show win1_3.index t (0 : Fin 2) * 256 + 1 * p.val = p.val; omega
  · show win1_3.index t (1 : Fin 2) * 1024 + 1 * q.val = n.val; omega

/-- The region's result array is the K-blocked product plus bias, clamped: each column block is what its last grid point leaves, and the column blocks cover the array. -/
theorem final1 : (dat1 V c).arrAt 3 cfg1.N
    = tileRes (nk := 16) (tk := 512) (max · 0) 15 (by decide) (xarr1 V c) (warr1 V c) (barr1 V c) := by
  refine (dat1 V c).arrAt_eq_of_cover 3 _ (fun t hf => ?_) (fun (i : S256x2048.Idx) => ?_)
  · have h19 : t.val % 16 = 15 := (flush1_3 t).mp hf
    show (cfg1.win 3).cut (grid1.coords t) ((dat1 V c).after 3 t) = _
    rw [after1_3]
    refine funext fun (y : S256x1024.Idx) => ?_
    obtain ⟨p, q, rfl⟩ : ∃ (p : Fin 256) (q : Fin 1024), y = ix2 p q := ⟨y 0, y 1, eq_ix2 y⟩
    have : t.val < 32 := N_1 ▸ t.isLt
    rw [View.read_apply, oblk1_emb t p q ⟨t.val / 16 * 1024 + q.val, by omega⟩ rfl]
    exact tile_entry (nk := 16) (tk := 512) (tn := 1024) (max · 0) 15 rfl (xarr1 V c) (warr1 V c) (barr1 V c)
      (fun t ht => iblk1 V c 0 ⟨t, ht⟩) (fun t ht => iblk1 V c 1 ⟨t, ht⟩) (fun t ht => iblk1 V c 2 ⟨t, ht⟩)
      (fun t ht => xblk1_apply V c ⟨t, ht⟩) (fun t ht => wblk1_apply V c ⟨t, ht⟩) (fun t ht => bblk1_apply V c ⟨t, ht⟩)
      (outsAt1 V c) (k1_pay1 (F := Ideal)) (k1_pay2 (F := Ideal)) (k1_pay3 (F := Ideal)) (fun _ _ => pay1_apply _ _) (pay2_apply _ _ _) (pay3_relu_apply _ _ _)
      (fun t ht => accAt1_first V c ⟨t, ht⟩) (fun t ht => accAt1_next V c ⟨t, ht⟩) (fun _ _ _ => rfl)
      t.val t.isLt h19 p q _ rfl
  · have := idx2_lt1 i
    have hN : cfg1.N = 32 := N_1
    obtain ⟨t, h19, hq⟩ : ∃ t : Fin cfg1.N, t.val % 16 = 15 ∧ (i 1).val = t.val / 16 * 1024 + (i 1).val % 1024 :=
      ⟨⟨(i 1).val / 1024 * 16 + 15, by omega⟩, by dsimp only; omega, by dsimp only; omega⟩
    exact ⟨t, (flush1_3 t).mpr h19, ((oblk1_emb t ⟨(i 0).val, idx2_lt0 i⟩ ⟨(i 1).val % 1024, by omega⟩ ⟨(i 1).val, this⟩
      hq).trans (eq_ix2 i).symm) ▸ ((cfg1.win 3).blk t).view.emb_mem_set _⟩

end Cert.KernelIdeal.Val

end
-- ==== Proof.KI.R2Value.lean ====
import proofs.«402315_j14740327760019_3_alg».proof.Proof.KI.R2Body
import proofs.«402315_j14740327760019_3_alg».proof.Proof.KI.R0Pay

noncomputable section

namespace Cert.KernelIdeal.Val

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b)) (c : Dev nD)

abbrev xarr2 : Vec Ideal S256x2048 .bf16 := V c (Pipeline.arrRef spec2 0)
abbrev warr2 : Vec Ideal S2048x512 .bf16 := V c (Pipeline.arrRef spec2 1)
abbrev barr2 : Vec Ideal S1x512 .f32 := V c (Pipeline.arrRef spec2 2)

/-- Point `t` works on contracted block `t % 4` and column block `t / 4`; the row block is always 0. -/
theorem idx_facts2 : ∀ t : Fin cfg2.N,
    win2_0.index t (0 : Fin 2) = 0 ∧ win2_0.index t (1 : Fin 2) = t.val % 4
    ∧ win2_1.index t (0 : Fin 2) = t.val % 4 ∧ win2_1.index t (1 : Fin 2) = t.val / 4
    ∧ win2_2.index t (0 : Fin 2) = 0 ∧ win2_2.index t (1 : Fin 2) = t.val / 4
    ∧ win2_3.index t (0 : Fin 2) = 0 ∧ win2_3.index t (1 : Fin 2) = t.val / 4 :=
  (by decide +kernel : ∀ t : Fin grid2.N, _)

variable (t : Fin cfg2.N)

theorem xblk2_apply (p : Fin 256) (k : Fin 512) (k' : Fin 2048) (hk : k'.val = t.val % 4 * 512 + k.val) :
    iblk2 V c 0 t (ix2 p k) = xarr2 V c (ix2 p k') := by
  obtain ⟨e0, e1, -⟩ := idx_facts2 t
  unfold iblk2
  rw [View.read_apply]
  refine congrArg (xarr2 V c) (Shape.idx_ext₂ ?_ ?_)
  · show win2_0.index t (0 : Fin 2) * 256 + 1 * p.val = p.val; omega
  · show win2_0.index t (1 : Fin 2) * 512 + 1 * k.val = k'.val; omega

theorem wblk2_apply (k : Fin 512) (q : Fin 256) (k' : Fin 2048) (n : Fin 512)
    (hk : k'.val = t.val % 4 * 512 + k.val) (hn : n.val = t.val / 4 * 256 + q.val) :
    iblk2 V c 1 t (ix2 k q) = warr2 V c (ix2 k' n) := by
  obtain ⟨-, -, e2, e3, -⟩ := idx_facts2 t
  unfold iblk2
  rw [View.read_apply]
  refine congrArg (warr2 V c) (Shape.idx_ext₂ ?_ ?_)
  · show win2_1.index t (0 : Fin 2) * 512 + 1 * k.val = k'.val; omega
  · show win2_1.index t (1 : Fin 2) * 256 + 1 * q.val = n.val; omega

theorem bblk2_apply (q : Fin 256) (n : Fin 512) (hn : n.val = t.val / 4 * 256 + q.val) :
    iblk2 V c 2 t (ix2 (0 : Fin 1) q) = barr2 V c (ix2 (0 : Fin 1) n) := by
  obtain ⟨-, -, -, -, e4, e5, -⟩ := idx_facts2 t
  unfold iblk2
  rw [View.read_apply]
  refine congrArg (barr2 V c) (Shape.idx_ext₂ ?_ ?_)
  · show win2_2.index t (0 : Fin 2) * 1 + 1 * 0 = 0; omega
  · show win2_2.index t (1 : Fin 2) * 256 + 1 * q.val = n.val; omega

theorem oblk2_emb (p : Fin 256) (q : Fin 256) (n : Fin 512) (hn : n.val = t.val / 4 * 256 + q.val) :
    ((cfg2.win 3).blk t).view.emb (ix2 p q) = ix2 p n := by
  obtain ⟨-, -, -, -, -, -, e6, e7⟩ := idx_facts2 t
  refine Shape.idx_ext₂ ?_ ?_
  · show win2_3.index t (0 : Fin 2) * 256 + 1 * p.val = p.val; omega
  · show win2_3.index t (1 : Fin 2) * 256 + 1 * q.val = n.val; omega

/-- The region's result array is the K-blocked product plus bias: each column block is what its last grid point leaves, and the column blocks cover the array. -/
theorem final2 : (dat2 V c).arrAt 3 cfg2.N
    = tileRes (nk := 4) (tk := 512) id 3 (by decide) (xarr2 V c) (warr2 V c) (barr2 V c) := by
  refine (dat2 V c).arrAt_eq_of_cover 3 _ (fun t hf => ?_) (fun (i : S256x512.Idx) => ?_)
  · have h19 : t.val % 4 = 3 := (flush2_3 t).mp hf
    show (cfg2.win 3).cut (grid2.coords t) ((dat2 V c).after 3 t) = _
    rw [after2_3]
    refine funext fun (y : S256x256.Idx) => ?_
    obtain ⟨p, q, rfl⟩ : ∃ (p : Fin 256) (q : Fin 256), y = ix2 p q := ⟨y 0, y 1, eq_ix2 y⟩
    have : t.val < 8 := N_2 ▸ t.isLt
    rw [View.read_apply, oblk2_emb t p q ⟨t.val / 4 * 256 + q.val, by omega⟩ rfl]
    exact tile_entry (nk := 4) (tk := 512) (tn := 256) id 3 rfl (xarr2 V c) (warr2 V c) (barr2 V c)
      (fun t ht => iblk2 V c 0 ⟨t, ht⟩) (fun t ht => iblk2 V c 1 ⟨t, ht⟩) (fun t ht => iblk2 V c 2 ⟨t, ht⟩)
      (fun t ht => xblk2_apply V c ⟨t, ht⟩) (fun t ht => wblk2_apply V c ⟨t, ht⟩) (fun t ht => bblk2_apply V c ⟨t, ht⟩)
      (outsAt2 V c) (k2_pay1 (F := Ideal)) (k2_pay2 (F := Ideal)) (k2_pay3 (F := Ideal)) (fun _ _ => pay1_apply _ _) (pay2_apply _ _ _) (pay3_apply _ _)
      (fun t ht => accAt2_first V c ⟨t, ht⟩) (fun t ht => accAt2_next V c ⟨t, ht⟩) (fun _ _ _ => rfl)
      t.val t.isLt h19 p q _ rfl
  · have := idx2_lt1 i
    have hN : cfg2.N = 8 := N_2
    obtain ⟨t, h19, hq⟩ : ∃ t : Fin cfg2.N, t.val % 4 = 3 ∧ (i 1).val = t.val / 4 * 256 + (i 1).val % 256 :=
      ⟨⟨(i 1).val / 256 * 4 + 3, by omega⟩, by dsimp only; omega, by dsimp only; omega⟩
    exact ⟨t, (flush2_3 t).mpr h19, ((oblk2_emb t ⟨(i 0).val, idx2_lt0 i⟩ ⟨(i 1).val % 256, by omega⟩ ⟨(i 1).val, this⟩
      hq).trans (eq_ix2 i).symm) ▸ ((cfg2.win 3).blk t).view.emb_mem_set _⟩

end Cert.KernelIdeal.Val

end
-- ==== Proof.KI.KernelValue.lean ====
import proofs.«402315_j14740327760019_3_alg».proof.Proof.NetGlue
import proofs.«402315_j14740327760019_3_alg».proof.Proof.Result
import proofs.«402315_j14740327760019_3_alg».proof.Proof.PreFacts
import proofs.«402315_j14740327760019_3_alg».proof.Proof.KI.RunAll
import proofs.«402315_j14740327760019_3_alg».proof.Proof.KI.HostVals
import proofs.«402315_j14740327760019_3_alg».proof.Proof.KI.R0Value
import proofs.«402315_j14740327760019_3_alg».proof.Proof.KI.R1Value
import proofs.«402315_j14740327760019_3_alg».proof.Proof.KI.R2Value

noncomputable section

namespace Cert.Proof

open Idealize.ShloMosaic Idealize.ShloMosaic.ValueIdx Idealize.ShloMosaic.TcCoe Idealize.SL.Sem
open Cert.KernelIdeal Cert.KernelIdeal.Gen Cert.KernelIdeal.Val Cert.KI Cert.Spec

variable (m : (ℓ : Loc nD τ sig) → Buf (Elt Ideal) ℓ)

/-- The run ends with the result buffer at the network's output: the host's arrays are the zero-paddings the three-layer lemma asks for, each region's result is its K-blocked product, and each result is the next region's left operand. -/
theorem kernel_side (ρ : Dev nD → PrngReg)
    (D : ∀ c : Dev nD, Cert.PreFacts.Decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :
    θ_run (Cert.KernelIdeal.defs (F := Ideal)) (onTc (τ := τ) (main (F := Ideal))) ⟨m, fun _ => 0, ρ⟩ (fun r => ∀ c : Dev nD,
      r.2.mem ((c.tc : Thread nD τ).loc main_v65)
        = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
            (D c).rows0_range (D c).cols0_range (D c).rows1_range (D c).cols1_range (D c).rows2_range (D c).cols2_range
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run Cert.KernelIdeal.defs _ _).mono (fun _ h c => ⟨(h c).1.trans ?_, (h c).2⟩) (run_value m ρ)
  have hW1 := V17_main_v40_apply m (outsF m) c (D c).rows1_range (D c).cols1_range
  have hB1 := V17_main_v42_apply m (outsF m) c 0
  have hW2 := V25_main_v61_apply m (outsF m) c (D c).rows2_range (D c).cols2_range
  have hB2 := V25_main_v63_apply m (outsF m) c 0
  rw [V17_outsF] at hW1 hB1
  rw [V25_outsF] at hW2 hB2
  refine eq_result _ _ _ _ _ _ _ _ _ _ _ _ _ _ _ _ _ _ _ _ (fun p r => ?_)
  refine ((V27_main_v65_apply m (outsF m) c p r).trans (congrFun (outsF_main_v64 m c) _)).trans ?_
  exact net_glue (arr2 (argX m c))
    (dec (D c).rows0_range) (dec (D c).cols0_range) (arr1 (argVals0 m c)) (arr1 (argBias0 m c))
    (dec (D c).rows1_range) (dec (D c).cols1_range) (arr1 (argVals1 m c)) (arr1 (argBias1 m c))
    (dec (D c).rows2_range) (dec (D c).cols2_range) (arr1 (argVals2 m c)) (arr1 (argBias2 m c))
    (fun p k => (D c).x_real (ix2 p k))
    (fun e => (D c).vals0_real (ix1 e)) (fun n => (D c).bias0_real (ix1 n))
    (fun e => (D c).vals1_real (ix1 e)) (fun n => (D c).bias1_real (ix1 n))
    (fun e => (D c).vals2_real (ix1 e))
    (arr2 (V9 m c main_v1)) (V9_main_v1_apply m c)
    (arr2 (V9 m c main_v19)) (V9_main_v19_apply m c (D c).rows0_range (D c).cols0_range)
    (fun n => V9 m c main_v21 (ix2 0 n)) (V9_main_v21_apply m c 0)
    (arr2 (X17 m c main_v22)) (fun p n => (congrFun ((congrFun (V17_outsF m c) _).symm.trans
      ((V17_main_v22 m (outsF m) c).trans (outsF_main_v22 m c))) _).trans (congrFun (final0 (En0 m) c) (ix2 p n)))
    (arr2 (X17 m c main_v40)) hW1 (fun n => X17 m c main_v42 (ix2 0 n)) hB1
    (arr2 (X25 m c main_v43)) (fun p n => (congrFun ((congrFun (V25_outsF m c) _).symm.trans
      ((V25_main_v43 m (outsF m) c).trans (outsF_main_v43 m c))) _).trans (congrFun (final1 (En1 m) c) (ix2 p n)))
    (arr2 (X25 m c main_v61)) hW2 (fun n => X25 m c main_v63 (ix2 0 n)) hB2
    (arr2 ((dat2 (En2 m) c).arrAt 3 cfg2.N)) (fun p n => congrFun (final2 (En2 m) c) (ix2 p n)) p r

end Cert.Proof

end
-- ==== Proof.Algebraic.lean ====
import proofs.«402315_j14740327760019_3_alg».proof.Defs
import proofs.«402315_j14740327760019_3_alg».proof.Proof.Gen.Pre_finite_inputs
import proofs.«402315_j14740327760019_3_alg».proof.Proof.RefValue
import proofs.«402315_j14740327760019_3_alg».proof.Proof.KI.KernelValue

noncomputable section

namespace Cert.Proof

open Idealize.ShloMosaic Idealize.SL.Sem

/-- Both runs end at the network of the kernel's arguments: the reference's arguments are the kernel's. -/
theorem algebraic : Cert.algebraic_KernelIdeal_ReferenceIdeal := by
  intro m ρ m' ρ' hpre hagree
  have D := fun c => Cert.PreFacts.decoded _ _ _ _ _ _ _ _ _ _ _ _ _ (hpre c)
  refine ⟨_, kernel_side m ρ D, (θ_run Cert.ReferenceIdeal.defs _ _).mono (fun _ h c => ⟨(h c).1.trans ?_, (h c).2⟩)
    (Cert.ReferenceIdeal.Value.run (F := Ideal) m' ρ')⟩
  obtain ⟨h0, h1, h2, h3, h4, h5, h6, h7, h8, h9, h10, h11, h12⟩ := hagree c
  rw [h0, h1, h2, h3, h4, h5, h6, h7, h8, h9, h10, h11, h12, Cert.ReferenceIdeal.Read.val_main_v55_eq]
  exact Cert.Spec.eq_result _ _ _ _ _ _ _ _ _ _ _ _ _ _ _ _ _ _ _ _
    (Cert.ReferenceIdeal.RefValue.ref_value _ _ _ _ _ _ _ _ _ _ _ _ _ _ _ _ _ _ _)

end Cert.Proof

end
-- ==== Proof.lean ====
import proofs.«402315_j14740327760019_3_alg».proof.Defs
import proofs.«402315_j14740327760019_3_alg».proof.Proof.Gen.Kernel
import proofs.«402315_j14740327760019_3_alg».proof.Proof.Gen.KernelIdeal
import proofs.«402315_j14740327760019_3_alg».proof.Proof.Gen.ReferenceIdeal
import proofs.«402315_j14740327760019_3_alg».proof.Proof.Gen.Pre_finite_inputs
import proofs.«402315_j14740327760019_3_alg».proof.Proof.K.RunAll
import proofs.«402315_j14740327760019_3_alg».proof.Proof.Algebraic

noncomputable section

namespace Cert.Proof

open Idealize.ShloMosaic Idealize.SL.Sem

/-- Each program runs to the end leaving its arguments as launched; idealizing rewrote no operation; the two idealized programs end at one result. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame (F := Bits) m ρ, fun m ρ _ => Cert.KernelIdeal.Gen.frame (F := Ideal) m ρ,
    fun m ρ _ => (θ_run Cert.ReferenceIdeal.defs _ _).mono (fun _ h c => (h c).2) (Cert.ReferenceIdeal.Value.run (F := Ideal) m ρ),
    trivial, algebraic⟩

end Cert.Proof

end
